-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S32000x1024 : Shape := ⟨2, ![32000, 1024]⟩
abbrev S1024 : Shape := ⟨1, ![1024]⟩
abbrev S1024x1024 : Shape := ⟨2, ![1024, 1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg0 : IVec S1x4096 32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_c_8 : IVec S_ 32 := constantI S_ 32 0#32
  let main_v24 : IVec S1x4096 32 := broadcastInDim S1x4096 ![] bcast_S_S1x4096 main_c_8
  let main_v25 : IVec S1x4096 1 := cmpi .sge main_arg0 main_v24
  let main_c_9 : IVec S_ 32 := constantI S_ 32 31999#32
  let main_v26 : IVec S1x4096 32 := broadcastInDim S1x4096 ![] bcast_S_S1x4096 main_c_9
  let main_v27 : IVec S1x4096 1 := cmpi .sle main_arg0 main_v26
  let main_v28 : IVec S1x4096 1 := andi main_v25 main_v27
  let main_c_10 : IVec S_ 1 := constantI S_ 1 1#1
  let main_v29 : IVec S_ 1 := (fun x v => Host.reduce IntOp.andi x v reducesTo_S1x4096_S_d0_1 h_S_) main_v28 main_c_10
  let main_v30 : IVec S_ 1 := andi main_v23 main_v29
  main_v30

def fn {F : FTy → Type} [FloatOps F] (main_arg0 : IVec S1x4096 32) (main_arg1 : FVec F S32000x1024 .f32) (main_arg2 : FVec F S1024 .f32) (main_arg3 : FVec F S1024x1024 .f32) (main_arg4 : FVec F S1024x1024 .f32) (main_arg5 : FVec F S1024x1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg5 main_v13 main_v16
-- ==== Kernel.lean ====
abbrev S1x4096 : Shape := ⟨2, ![1, 4096]⟩
abbrev S32000x1024 : Shape := ⟨2, ![32000, 1024]⟩
abbrev S1024 : Shape := ⟨1, ![1024]⟩
abbrev S1024x1024 : Shape := ⟨2, ![1024, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x2048 : Shape := ⟨2, ![512, 2048]⟩
abbrev S1024x1 : Shape := ⟨2, ![1024, 1]⟩

abbrev nBuf : Space → Nat
  | .hbm => 45
  | .vmem => 31
  | .smem => 0
  | _ => 0

abbrev bufTy : (tb : Table) → Fin (tcTables nBuf tb) → BufTy
  | .hbm, ⟨0, _⟩ => ⟨S1x4096, .i32⟩
  | .hbm, ⟨1, _⟩ => ⟨S32000x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x1024, .f32⟩
  | .hbm, ⟨26, _⟩ => ⟨S4096x1024, .i1⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S1024x1024, .f32⟩
  | .hbm, ⟨32, _⟩ => ⟨S1024x2048, .f32⟩
  | .hbm, ⟨33, _⟩ => ⟨S1024x2048, .bf16⟩
  | .hbm, ⟨34, _⟩ => ⟨S1024x2048, .f32⟩
  | .hbm, ⟨35, _⟩ => ⟨S1024x2048, .f32⟩
  | .hbm, ⟨36, _⟩ => ⟨S1024x2048, .bf16⟩
  | .hbm, ⟨37, _⟩ => ⟨S1024x1024, .f32⟩
  | .hbm, ⟨38, _⟩ => ⟨S1024x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x1, .f32⟩
  | .local _ .vmem, ⟨29, _⟩ => ⟨S1024x1, .f32⟩
  | .local _ .vmem, ⟨30, _⟩ => ⟨S1024x1024, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11_0 : Ref sig .tc := ⟨.hbm, 39, rfl⟩
abbrev main_v11_1 : Ref sig .tc := ⟨.hbm, 40, rfl⟩
abbrev main_v11_2 : Ref sig .tc := ⟨.hbm, 41, rfl⟩
abbrev main_v11_3 : Ref sig .tc := ⟨.hbm, 42, rfl⟩
abbrev main_v11_4 : Ref sig .tc := ⟨.hbm, 43, rfl⟩
abbrev main_v12 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_29 : BitVec 32 := 0#32
  let v50 : BitVec 1 := Scalar.cmpi .ne v49 c0_i32_29
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  slices_S512x2048_o0_1024_S512x1024 : S512x2048.Slices ![0, 1024] S512x1024
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  gather_S32000x1024_S4096x1_S4096x1024_1_0_n_n_0_1_11024_wf : GatherDims.WF S32000x1024 S4096x1 S4096x1024 [1] [0] [] [0] [] 1 ![1, 1024]
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x1024.size a
  hwx1_4 : ∀ i : grid1.Coords, EltTy.bits .bf16 = 32 ∨ (Rect.block (s := S4096x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x1024.size a
  hwx1_5 : ∀ i : grid1.Coords, EltTy.bits .f32 = 32 ∨ (Rect.block (s := S4096x1024) S1024x1024.size (cc1_transform_5 i) (hinb1_5 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_2) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_3) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_4) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_3) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_4) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x4096 : Shape := ⟨2, ![1, 4096]⟩
abbrev S32000x1024 : Shape := ⟨2, ![32000, 1024]⟩
abbrev S1024 : Shape := ⟨1, ![1024]⟩
abbrev S1024x1024 : Shape := ⟨2, ![1024, 1024]⟩
abbrev S_ : Shape := ⟨0, ![]⟩
abbrev S1x4096x1 : Shape := ⟨3, ![1, 4096, 1]⟩
abbrev S1x4096x1024 : Shape := ⟨3, ![1, 4096, 1024]⟩
abbrev S1x1x1024 : Shape := ⟨3, ![1, 1, 1024]⟩
abbrev S4096x1024 : Shape := ⟨2, ![4096, 1024]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S32000x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .i32⟩
  | .hbm, ⟨7, _⟩ => ⟨S1x4096, .i32⟩
  | .hbm, ⟨8, _⟩ => ⟨S1x4096, .i1⟩
  | .hbm, ⟨9, _⟩ => ⟨S_, .i32⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S1x4096x1, .i32⟩
  | .hbm, ⟨14, _⟩ => ⟨S1x4096x1024, .f32⟩
  | .hbm, ⟨15, _⟩ => ⟨S1x4096x1024, .f32⟩
  | .hbm, ⟨16, _⟩ => ⟨S_, .f32⟩
  | .hbm, ⟨17, _⟩ => ⟨S1x4096, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1, .f32⟩
  | .hbm, ⟨26, _⟩ => ⟨S1x4096x1024, .f32⟩
  | .hbm, ⟨27, _⟩ => ⟨S1x4096x1024, .f32⟩
  | .hbm, ⟨28, _⟩ => ⟨S1x1x1024, .f32⟩
  | .hbm, ⟨29, _⟩ => ⟨S1x4096x1024, .f32⟩
  | .hbm, ⟨30, _⟩ => ⟨S1x4096x1024, .f32⟩
  | .hbm, ⟨31, _⟩ => ⟨S4096x1024, .f32⟩
  | .hbm, ⟨32, _⟩ => ⟨S1024x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S1024x1024, .f32⟩
  | .hbm, ⟨37, _⟩ => ⟨S4096x1024, .f32⟩
  | .hbm, ⟨38, _⟩ => ⟨S1024x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  reducesTo_S1x4096x1024_S1x4096_d2 : S1x4096x1024.ReducesTo [2] S1x4096
  h_S_ : 0 < S_.numel
  bcast_S_S1x4096x1 : S_.BroadcastsInDim S1x4096x1 (![] : Fin 0 → Fin S1x4096x1.rank)
  bcast_S1x4096x1_S1x4096x1024_0_1_2 : S1x4096x1.BroadcastsInDim S1x4096x1024 (![0, 1, 2] : Fin 3 → Fin S1x4096x1024.rank)
  bcast_S1024_S1x1x1024_2 : S1024.BroadcastsInDim S1x1x1024 (![2] : Fin 1 → Fin S1x1x1024.rank)
  bcast_S1x1x1024_S1x4096x1024_0_1_2 : S1x1x1024.BroadcastsInDim S1x4096x1024 (![0, 1, 2] : Fin 3 → Fin S1x4096x1024.rank)
  shapeCasts_S1x4096x1024_S4096x1024 : S1x4096x1024.ShapeCasts S4096x1024
  transposes_S1024x1024_S1024x1024_1_0 : S1024x1024.Transposes [1, 0] S1024x1024
  transposes_S4096x1024_S1024x4096_1_0 : S4096x1024.Transposes [1, 0] S1024x4096
  reducesTo_S4096x4096_S4096_d1 : S4096x4096.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x1024 : S_.BroadcastsInDim S4096x1024 (![] : Fin 0 → Fin S4096x1024.rank)
  gather_S32000x1024_S1x4096x1_S1x4096x1024_2_0_n_n_0_2_11024_wf : GatherDims.WF S32000x1024 S1x4096x1 S1x4096x1024 [2] [0] [] [0] [] 2 ![1, 1024]
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def gather_S32000x1024_S1x4096x1_S1x4096x1024_2_0_n_n_0_2_11024 : GatherDims S32000x1024 S1x4096x1 S1x4096x1024 where
  offsetDims := [2]
  collapsedSliceDims := [0]
  operandBatchingDims := []
  startIndicesBatchingDims := []
  startIndexMap := [0]
  indexVectorDim := 2
  sliceSizes := ![1, 1024]
  wf := gather_S32000x1024_S1x4096x1_S1x4096x1024_2_0_n_n_0_2_11024_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.FrKernelIdeal.R0.lean ====
import proofs.«416823_j31155692765526_3_alg».proof.Proof.Gen.KernelIdeal.Launch
import proofs.«416823_j31155692765526_3_alg».proof.Proof.Gen.KernelIdeal.Skeleton
import proofs.«416823_j31155692765526_3_alg».proof.Proof.Gen.KernelIdeal.Points
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S512x1024 := Rect.unit (s := S512x1024) ![0, 0] S512x1024.size inb_S512x1024_S512x1024_0_0
abbrev r0_gain : Rect S1024 := Rect.unit (s := S1024) ![0] S1024.size inb_S1024_S1024_0
abbrev r0_wqk : Rect S1024x2048 := Rect.unit (s := S1024x2048) ![0, 0] S1024x2048.size inb_S1024x2048_S1024x2048_0_0
abbrev r0_wv : Rect S1024x1024 := Rect.unit (s := S1024x1024) ![0, 0] S1024x1024.size inb_S1024x1024_S1024x1024_0_0

section
variable (x0 : Vec F S512x1024 .f32) (x1 : Vec F S1024 .f32) (x2 x3 : Vec F S1024x2048 .bf16) (x4 : Vec F S1024x1024 .bf16)
def out0_5 : Vec F S512x1024 .bf16 :=
  View.canon [⟨r0_rows, k0_pay7 (View.ld x0 r0_rows) (View.ld x1 r0_gain) (View.ld x2 r0_wqk) (View.ld x3 r0_wqk) (View.ld x2 r0_wqk)⟩]
def out0_6 : Vec F S512x1024 .bf16 :=
  View.canon [⟨r0_rows, k0_pay8 (View.ld x0 r0_rows) (View.ld x1 r0_gain) (View.ld x2 r0_wqk) (View.ld x3 r0_wqk) (View.ld x2 r0_wqk)⟩]
def out0_7 : Vec F S512x1024 .bf16 :=
  View.canon [⟨r0_rows, k0_pay9 (View.ld x0 r0_rows) (View.ld x1 r0_gain) (View.ld x2 r0_wqk) (View.ld x3 r0_wqk) (View.ld x2 r0_wqk)⟩]
def out0_8 : Vec F S512x1024 .bf16 :=
  View.canon [⟨r0_rows, k0_pay10 (View.ld x0 r0_rows) (View.ld x1 r0_gain) (View.ld x2 r0_wqk) (View.ld x3 r0_wqk) (View.ld x2 r0_wqk)⟩]
def out0_9 : Vec F S512x1024 .bf16 :=
  View.canon [⟨r0_rows, k0_pay1 (k0_pay3 (View.ld x0 r0_rows) (View.ld x1 r0_gain)) (View.ld x4 r0_wv)⟩]
end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> exact (dat0 V c).before_in_eq_fetched _ rfl (fun _ => rfl) (fun _ _ _ => rfl) (fun _ => rfl) t

-- a rectangle of the block's own size at the origin covers the block
theorem cover0_out (p0 : Vec F S512x1024 .bf16) (y : S512x1024.Idx) :
    ∃ pc ∈ ([⟨r0_rows, p0⟩] : List (View.Piece (Elt F) S512x1024 .bf16)), y ∈ pc.1.set :=
  View.cover_of_tiled [⟨r0_rows, p0⟩] S512x1024.size (by rfl) y

-- with the five input blocks named, the body is a straight line of whole-block loads and stores: each output ends as one store's payload
theorem body_obligation0 (c : Dev nD) : BodyObligation (dat0 (F := F) V c) (defs₀ (F := F)) Variants.none () Set.univ := fun t => by
  obtain ⟨h0, h1, h2, h3, h4⟩ := before0 V c t
  rw [bigSep_W0, bigSep_W0]
  simp only [h0, h1, h2, h3, h4]
  dsimp only [dat0]
  generalize iblk0 V c 0 t = x0
  generalize iblk0 V c 1 t = x1
  generalize iblk0 V c 2 t = x2
  generalize iblk0 V c 3 t = x3
  generalize iblk0 V c 4 t = x4
  sl_whnfR [defs₀, Defs.onTc]
  simp only [cc0__qkv_kernel_eq_skeleton]; unfold cc0__qkv_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%d5, %f5, -, H5⟩, ⟨%d6, %f6, -, H6⟩, ⟨%d7, %f7, -, H7⟩, ⟨%d8, %f8, -, H8⟩, ⟨%d9, %f9, -, H9⟩⟩
  subst hf0 hf1 hf2 hf3 hf4
  sl_exec
  sl_step
  isplitl [HΦ]; · iexact HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists _; isplitr; swap; iexact H5; ipureintro; exact View.read_writes_eq_canon _ _ _ (cover0_out _)
  isplitl [H6]; · iexists _; isplitr; swap; iexact H6; ipureintro; exact View.read_writes_eq_canon _ _ _ (cover0_out _)
  isplitl [H7]; · iexists _; isplitr; swap; iexact H7; ipureintro; exact View.read_writes_eq_canon _ _ _ (cover0_out _)
  isplitl [H8]; · iexists _; isplitr; swap; iexact H8; ipureintro; exact View.read_writes_eq_canon _ _ _ (cover0_out _)
  iexists _; isplitr; swap; iexact H9; ipureintro; exact View.read_writes_eq_canon _ _ _ (cover0_out _)

end Cert.KernelIdeal.Fr

end
-- ==== Proof.FrKernelIdeal.R1Runs.lean ====
import proofs.«416823_j31155692765526_3_alg».proof.Proof.Gen.KernelIdeal.Launch
import proofs.«416823_j31155692765526_3_alg».proof.Proof.Gen.KernelIdeal.Skeleton
import proofs.«416823_j31155692765526_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev VO1_5 : View sig .tc .vmem S1024x1024 .f32 := (Memref.whole cc1_stg5_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

-- Raw contents that read x are contents of a memref owned at x.
theorem owns_unread (c : Dev nD) {s : Shape} {e : EltTy} {m : Memref sig .tc .vmem s e} (h : m.IsWhole) (x : s.Idx → Elt F e) :
    (iprop(m.view.loc (c : Thread nD τ) ↦[m.view.set]{fullShare} h.unread x) : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

end Cert.KernelIdeal.Fr

end
-- ==== Proof.FrKernelIdeal.R1RunA.lean ====
import proofs.«416823_j31155692765526_3_alg».proof.Proof.FrKernelIdeal.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 x3 x4 : Vec F S1024x1024 .bf16) :
    Σ' (L5 : List (View.Piece (Elt F) S1024x1024 .f32)) (LS0 LS1 : List (View.Piece (Elt F) S1024x1 .f32)), { LS2 : List (View.Piece (Elt F) S1024x1024 .f32) //
      ∀ (xi5 : Vec F S1024x1024 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare xi5 ∗ (∃ d, owns c arg8 fullShare d) ∗ (∃ d, owns c arg9 fullShare d) ∗ (∃ d, owns c arg10 fullShare d)
            ∗ (iprop(owns c arg2 fullShare x0 ∗ owns c arg3 fullShare x1 ∗ owns c arg4 fullShare x2 ∗ owns c arg5 fullShare x3 ∗ owns c arg6 fullShare x4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [HS0]; · iexists _; iexact HS0
    isplitl [HS1]; · iexists _; iexact HS1
    iexists _; iexact HS2

end Cert.KernelIdeal.Fr

end
-- ==== Proof.FrKernelIdeal.R1RunB.lean ====
import proofs.«416823_j31155692765526_3_alg».proof.Proof.FrKernelIdeal.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 x3 x4 : Vec F S1024x1024 .bf16) (xs0 xs1 : Vec F S1024x1 .f32) (xs2 : Vec F S1024x1024 .f32) :
    Σ' (L5 : List (View.Piece (Elt F) S1024x1024 .f32)) (LS0 LS1 : List (View.Piece (Elt F) S1024x1 .f32)), { LS2 : List (View.Piece (Elt F) S1024x1024 .f32) //
      ∀ (xi5 : Vec F S1024x1024 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare xi5 ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare x3 ∗ owns c arg6 fullShare x4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [HS0]; · iexists _; iexact HS0
    isplitl [HS1]; · iexists _; iexact HS1
    iexists _; iexact HS2

end Cert.KernelIdeal.Fr

end
-- ==== Proof.FrKernelIdeal.R1RunC.lean ====
import proofs.«416823_j31155692765526_3_alg».proof.Proof.FrKernelIdeal.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 x3 x4 : Vec F S1024x1024 .bf16) (xs0 xs1 : Vec F S1024x1 .f32) (xs2 : Vec F S1024x1024 .f32) :
    Σ' (L5 : List (View.Piece (Elt F) S1024x1024 .f32)) (LS0 LS1 : List (View.Piece (Elt F) S1024x1 .f32)), { LS2 : List (View.Piece (Elt F) S1024x1024 .f32) //
      ∀ (E : Set ℕ) (K : PUnit → sProp 𝕄),
        iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare x3 ∗ owns c arg6 fullShare x4 ∗ (∃ f, arg7.view.loc c ↦[arg7.view.set]{fullShare} arg7.view.writes (Elt F) f L5) ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iexists _; iexact H5
    isplitl [HS0]; · iexists _; iexact HS0
    isplitl [HS1]; · iexists _; iexact HS1
    iexists _; iexact HS2

end Cert.KernelIdeal.Fr

end
-- ==== Proof.FrKernelIdeal.R1.lean ====
import proofs.«416823_j31155692765526_3_alg».proof.Proof.FrKernelIdeal.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases

variable (c : Dev nD) (i : grid1.Coords)
  (arg2 : Memref sig .tc .vmem S1024x1024 .bf16) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S1024x1024 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1024 .f32) (harg10 : arg10.IsWhole)

local notation "runA" => kernelRun1_A c i arg2 harg2 arg3 harg3 arg4 harg4 arg5 harg5 arg6 harg6 arg7 harg7 arg8 harg8 arg9 harg9 arg10 harg10
local notation "runB" => kernelRun1_B c i arg2 harg2 arg3 harg3 arg4 harg4 arg5 harg5 arg6 harg6 arg7 harg7 arg8 harg8 arg9 harg9 arg10 harg10
local notation "runC" => kernelRun1_C c i arg2 harg2 arg3 harg3 arg4 harg4 arg5 harg5 arg6 harg6 arg7 harg7 arg8 harg8 arg9 harg9 arg10 harg10

section
variable (hc0 : cond1_0 i) (hc1 : ¬cond1_1 i) (x0 x1 x2 x3 x4 : Vec F S1024x1024 .bf16)
def out1_A_5 : Vec F S1024x1024 .f32 := VO1_5.read (Elt F) (VO1_5.writes (Elt F) VO1_5.junk (runA hc0 hc1 x0 x1 x2 x3 x4).1)
def sout1_A_0 : Vec F S1024x1 .f32 := VS1_0.read (Elt F) (VS1_0.writes (Elt F) VS1_0.junk (runA hc0 hc1 x0 x1 x2 x3 x4).2.1)
def sout1_A_1 : Vec F S1024x1 .f32 := VS1_1.read (Elt F) (VS1_1.writes (Elt F) VS1_1.junk (runA hc0 hc1 x0 x1 x2 x3 x4).2.2.1)
def sout1_A_2 : Vec F S1024x1024 .f32 := VS1_2.read (Elt F) (VS1_2.writes (Elt F) VS1_2.junk (runA hc0 hc1 x0 x1 x2 x3 x4).2.2.2.1)
end

variable (hc0 : ¬cond1_0 i)

section
variable (hc1 : ¬cond1_1 i) (x0 x1 x2 x3 x4 : Vec F S1024x1024 .bf16) (xs0 xs1 : Vec F S1024x1 .f32) (xs2 : Vec F S1024x1024 .f32)
def out1_B_5 : Vec F S1024x1024 .f32 := VO1_5.read (Elt F) (VO1_5.writes (Elt F) VO1_5.junk (runB hc0 hc1 x0 x1 x2 x3 x4 xs0 xs1 xs2).1)
def sout1_B_0 : Vec F S1024x1 .f32 := VS1_0.read (Elt F) (VS1_0.writes (Elt F) VS1_0.junk (runB hc0 hc1 x0 x1 x2 x3 x4 xs0 xs1 xs2).2.1)
def sout1_B_1 : Vec F S1024x1 .f32 := VS1_1.read (Elt F) (VS1_1.writes (Elt F) VS1_1.junk (runB hc0 hc1 x0 x1 x2 x3 x4 xs0 xs1 xs2).2.2.1)
def sout1_B_2 : Vec F S1024x1024 .f32 := VS1_2.read (Elt F) (VS1_2.writes (Elt F) VS1_2.junk (runB hc0 hc1 x0 x1 x2 x3 x4 xs0 xs1 xs2).2.2.2.1)
end

variable (hc1 : cond1_1 i) (x0 x1 x2 x3 x4 : Vec F S1024x1024 .bf16) (xs0 xs1 : Vec F S1024x1 .f32) (xs2 : Vec F S1024x1024 .f32)
def out1_C_5 : Vec F S1024x1024 .f32 := VO1_5.read (Elt F) (VO1_5.writes (Elt F) VO1_5.junk (runC hc0 hc1 x0 x1 x2 x3 x4 xs0 xs1 xs2).1)
def sout1_C_0 : Vec F S1024x1 .f32 := VS1_0.read (Elt F) (VS1_0.writes (Elt F) VS1_0.junk (runC hc0 hc1 x0 x1 x2 x3 x4 xs0 xs1 xs2).2.1)
def sout1_C_1 : Vec F S1024x1 .f32 := VS1_1.read (Elt F) (VS1_1.writes (Elt F) VS1_1.junk (runC hc0 hc1 x0 x1 x2 x3 x4 xs0 xs1 xs2).2.2.1)
def sout1_C_2 : Vec F S1024x1024 .f32 := VS1_2.read (Elt F) (VS1_2.writes (Elt F) VS1_2.junk (runC hc0 hc1 x0 x1 x2 x3 x4 xs0 xs1 xs2).2.2.2.1)

end Cases

local notation:max "atPt(" f ", " c ", " t ", " a ", " b ")" => f c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) a b (iblk1 V c 0 t) (iblk1 V c 1 t) (iblk1 V c 2 t) (iblk1 V c 3 t) (iblk1 V c 4 t)

variable (c : Dev nD) (t : Fin cfg1.N)

def atA1 (hc0 : cond1_0 (grid1.coords t)) (hc1 : ¬cond1_1 (grid1.coords t)) :
    Vec F S1024x1024 .f32 × Vec F S1024x1 .f32 × Vec F S1024x1 .f32 × Vec F S1024x1024 .f32 :=
  (atPt(out1_A_5, c, t, hc0, hc1), atPt(sout1_A_0, c, t, hc0, hc1), atPt(sout1_A_1, c, t, hc0, hc1), atPt(sout1_A_2, c, t, hc0, hc1))

def atB1 (hc0 : ¬cond1_0 (grid1.coords t)) (hc1 : ¬cond1_1 (grid1.coords t))
    (p : Vec F S1024x1 .f32 × Vec F S1024x1 .f32 × Vec F S1024x1024 .f32) :
    Vec F S1024x1024 .f32 × Vec F S1024x1 .f32 × Vec F S1024x1 .f32 × Vec F S1024x1024 .f32 :=
  (atPt(out1_B_5, c, t, hc0, hc1) p.1 p.2.1 p.2.2, atPt(sout1_B_0, c, t, hc0, hc1) p.1 p.2.1 p.2.2,
    atPt(sout1_B_1, c, t, hc0, hc1) p.1 p.2.1 p.2.2, atPt(sout1_B_2, c, t, hc0, hc1) p.1 p.2.1 p.2.2)

def atC1 (hc0 : ¬cond1_0 (grid1.coords t)) (hc1 : cond1_1 (grid1.coords t))
    (p : Vec F S1024x1 .f32 × Vec F S1024x1 .f32 × Vec F S1024x1024 .f32) :
    Vec F S1024x1024 .f32 × Vec F S1024x1 .f32 × Vec F S1024x1 .f32 × Vec F S1024x1024 .f32 :=
  (atPt(out1_C_5, c, t, hc0, hc1) p.1 p.2.1 p.2.2, atPt(sout1_C_0, c, t, hc0, hc1) p.1 p.2.1 p.2.2,
    atPt(sout1_C_1, c, t, hc0, hc1) p.1 p.2.1 p.2.2, atPt(sout1_C_2, c, t, hc0, hc1) p.1 p.2.1 p.2.2)

/-- The output block and the running maximum, sum and weighted sum after position n: n % 4 decides the case; B and C build on position n - 1. -/
def outsAt1 : (n : ℕ) → n < cfg1.N →
    Vec F S1024x1024 .f32 × Vec F S1024x1 .f32 × Vec F S1024x1 .f32 × Vec F S1024x1024 .f32
  | 0, hn => atA1 V c ⟨0, hn⟩ ((hcond1_0 ⟨0, hn⟩).mpr (Nat.zero_mod _)) (fun h => absurd ((hcond1_1 ⟨0, hn⟩).mp h) (show ¬(0 % 4 = 3) by decide))
  | n + 1, hn =>
    if h0 : (n + 1) % 4 = 0 then
      if h1 : (n + 1) % 4 = 3 then
        False.elim (by omega)
      else
        atA1 V c ⟨n + 1, hn⟩ ((hcond1_0 ⟨n + 1, hn⟩).mpr h0) (fun h => h1 ((hcond1_1 ⟨n + 1, hn⟩).mp h))
    else
      if h1 : (n + 1) % 4 = 3 then
        atC1 V c ⟨n + 1, hn⟩ (fun h => h0 ((hcond1_0 ⟨n + 1, hn⟩).mp h)) ((hcond1_1 ⟨n + 1, hn⟩).mpr h1)
          (outsAt1 n (Nat.lt_of_succ_lt hn)).2
      else
        atB1 V c ⟨n + 1, hn⟩ (fun h => h0 ((hcond1_0 ⟨n + 1, hn⟩).mp h)) (fun h => h1 ((hcond1_1 ⟨n + 1, hn⟩).mp h))
          (outsAt1 n (Nat.lt_of_succ_lt hn)).2

theorem outsAt1_A (h0 : t.val % 4 = 0) (h1 : ¬t.val % 4 = 3) :
    outsAt1 V c t.val t.isLt = atA1 V c t ((hcond1_0 t).mpr h0) (fun h => h1 ((hcond1_1 t).mp h)) := by
  obtain ⟨_ | n, hn⟩ := t
  · rfl
  · exact (dif_pos h0).trans (dif_neg h1)

theorem outsAt1_B (h0 : ¬t.val % 4 = 0) (h1 : ¬t.val % 4 = 3) :
    outsAt1 V c t.val t.isLt = atB1 V c t (fun h => h0 ((hcond1_0 t).mp h)) (fun h => h1 ((hcond1_1 t).mp h))
      (outsAt1 V c (t.val - 1) (Nat.lt_of_le_of_lt (Nat.sub_le _ _) t.isLt)).2 := by
  obtain ⟨_ | n, hn⟩ := t
  · exact absurd (Nat.zero_mod _) h0
  · exact (dif_neg h0).trans (dif_neg h1)

theorem outsAt1_C (h0 : ¬t.val % 4 = 0) (h1 : t.val % 4 = 3) :
    outsAt1 V c t.val t.isLt = atC1 V c t (fun h => h0 ((hcond1_0 t).mp h)) ((hcond1_1 t).mpr h1)
      (outsAt1 V c (t.val - 1) (Nat.lt_of_le_of_lt (Nat.sub_le _ _) t.isLt)).2 := by
  obtain ⟨_ | n, hn⟩ := t
  · exact absurd (Nat.zero_mod _) h0
  · exact (dif_neg h0).trans (dif_pos h1)

abbrev some1 : sProp 𝕄 :=
  iprop((((∃ d, owns (c : Thread nD τ) scM1_0 fullShare d) ∗ (∃ d, owns (c : Thread nD τ) scM1_1 fullShare d) ∗ (∃ d, owns (c : Thread nD τ) scM1_2 fullShare d)) ∗ Pipeline.scopedRestBut spec1 c [cc1_scratch0, cc1_scratch1, cc1_scratch2]) ∗ (∃ r, prngReg c r))

/-- ΦA regrouped: the three running quantities at some contents, then all else. -/
theorem PhiA1_split : (Pipeline.ΦA spec1 c : sProp 𝕄) = some1 c := by
  unfold Pipeline.ΦA
  rw [Pipeline.scopedRest_split_of_list spec1 c [cc1_scratch0, cc1_scratch1, cc1_scratch2] (by decide) (by decide)]
  simp only [some1, scM1_0, scM1_1, scM1_2, owns_whole]; rfl

/-- The three running quantities at exactly the contents p, beside all else. -/
def inv1 (p : Vec F S1024x1 .f32 × Vec F S1024x1 .f32 × Vec F S1024x1024 .f32) : sProp 𝕄 :=
  iprop(((owns (c : Thread nD τ) scM1_0 fullShare p.1 ∗ owns (c : Thread nD τ) scM1_1 fullShare p.2.1 ∗ owns (c : Thread nD τ) scM1_2 fullShare p.2.2) ∗ Pipeline.scopedRestBut spec1 c [cc1_scratch0, cc1_scratch1, cc1_scratch2]) ∗ (∃ r, prngReg c r))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := if h : t.val = 0 then Pipeline.ΦA spec1 c else inv1 c (outsAt1 V c (t.val - 1) (by omega)).2
  q _ := fullShare
  owed _ := 0

theorem A_eq1 (w : Fin cfg1.W) : (dat1 V c).A w = V c (Pipeline.arrRef spec1 w) := rfl

theorem after1_5 : (dat1 V c).after 5 t = (outsAt1 V c t.val t.isLt).1 := rfl

/-- Forgetting the contents turns the invariant at any position back into ΦA, regrouped. -/
theorem Phi_some (t) : (dat1 V c).Φ t ⊢ some1 c := by
  dsimp only [dat1]; split
  · rw [PhiA1_split]
  · unfold inv1 some1
    iintro ⟨⟨⟨H0, H1, H2⟩, HR⟩, Hg⟩
    iframe HR Hg
    isplitl [H0]; · iexists _; iexact H0
    isplitl [H1]; · iexists _; iexact H1
    iexists _; iexact H2

theorem Phi_succ : (dat1 V c).Φ t.succ = inv1 c (outsAt1 V c t.val t.isLt).2 := by
  unfold dat1; dsimp only; exact dif_neg (Nat.succ_ne_zero _)

theorem Phi_pos (hz : t.val ≠ 0) :
    (dat1 V c).Φ t.castSucc = inv1 c (outsAt1 V c (t.val - 1) (Nat.lt_of_le_of_lt (Nat.sub_le _ _) t.isLt)).2 := dif_neg hz

theorem live1 : ∀ (w : Fin cfg1.W) (t : Fin cfg1.N), w ≠ 5 → cfg1.idle w (cfg1.grid.coords t) = false := by decide +kernel
theorem idle1_5 : ∀ t : Fin cfg1.N, ¬cond1_1 (grid1.coords t) → idle1 5 (grid1.coords t) = true ∧ (win1 5).flush t = false := by decide +kernel
theorem live1_5 : ∀ t : Fin cfg1.N, cond1_1 (grid1.coords t) → idle1 5 (grid1.coords t) = false := by decide +kernel

theorem before1 : (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ ∀ d, (dat1 V c).before 4 t d = iblk1 V c 4 t := by
  refine ⟨?_, ?_, ?_, ?_, ?_⟩ <;> exact (dat1 V c).before_in_eq_fetched _ rfl (fun _ => rfl) (fun _ _ _ => rfl) (fun _ => rfl) t

theorem after1 : (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t := ⟨rfl, rfl, rfl, rfl, rfl⟩

/-- In each case the pieces written tile each running quantity, so what is left is what outsAt1 defines. -/
theorem body_obligation1 : BodyObligation (dat1 (F := F) V c) (defs₀ (F := F)) Variants.none () Set.univ := fun t => by
  rw [show (dat1 V c).owesAt () t.succ = (dat1 V c).owesAt () t.castSucc from rfl]
  simp (disch := decide) only [bigSep_W1, live1, before1 V c t, after1 V c t, Phi_succ]
  by_cases h0 : t.val % 4 = 0
  on_goal 2 => by_cases h1 : t.val % 4 = 3
  on_goal 3 =>
    have hc1 := mt (hcond1_1 t).mp h1
    simp only [idle1_5 t hc1]; rw [Phi_pos V c t (by omega), outsAt1_B V c t h0 h1]
    unfold inv1 atB1 sout1_B_0 sout1_B_1 sout1_B_2; dsimp only
    iintro ⟨⟨⟨⟨HS0, HS1, HS2⟩, HR⟩, Hg⟩, Ho, ⟨%_, H0⟩, ⟨%_, H1⟩, ⟨%_, H2⟩, ⟨%_, H3⟩, ⟨%_, H4⟩, ⟨%_, H5⟩⟩
    iapply ((atPt(kernelRun1_B, c, t, mt (hcond1_0 t).mp h0, hc1) _ _ _).2.2.2.2 _ Set.univ _)
  on_goal 2 =>
    have hc1 := (hcond1_1 t).mpr h1
    simp only [live1_5 t hc1]; rw [after1_5, Phi_pos V c t (by omega), outsAt1_C V c t h0 h1]
    unfold inv1 atC1 out1_C_5 sout1_C_0 sout1_C_1 sout1_C_2; dsimp only
    iintro ⟨⟨⟨⟨HS0, HS1, HS2⟩, HR⟩, Hg⟩, Ho, ⟨%_, H0⟩, ⟨%_, H1⟩, ⟨%_, H2⟩, ⟨%_, H3⟩, ⟨%_, H4⟩, ⟨%_, H5⟩⟩
    iapply ((atPt(kernelRun1_C, c, t, mt (hcond1_0 t).mp h0, hc1) _ _ _).2.2.2.2 Set.univ _)
  on_goal 1 =>
    have h1 : ¬t.val % 4 = 3 := by omega
    have hc1 := mt (hcond1_1 t).mp h1
    simp only [idle1_5 t hc1]; rw [outsAt1_A V c t h0 h1]
    unfold inv1 atA1 sout1_A_0 sout1_A_1 sout1_A_2; dsimp only
    iintro ⟨HΦ, Ho, ⟨%_, H0⟩, ⟨%_, H1⟩, ⟨%_, H2⟩, ⟨%_, H3⟩, ⟨%_, H4⟩, ⟨%_, H5⟩⟩
    ihave HΦ := (Phi_some V c _) $$ HΦ
    icases HΦ with ⟨⟨⟨HS0, HS1, HS2⟩, HR⟩, Hg⟩
    iapply (atPt(kernelRun1_A, c, t, (hcond1_0 t).mpr h0, hc1).2.2.2.2 _ Set.univ _)
  all_goals
    isplitl [H0]; · iexact H0
    isplitl [H1]; · iexact H1
    isplitl [H2]; · iexact H2
    isplitl [H3]; · iexact H3
    isplitl [H4]; · iexact H4
    isplitl [H5]; · first | iexact H5 | (iexists _; iexact H5)
    isplitl [HS0]; · iexact HS0
    isplitl [HS1]; · iexact HS1
    isplitl [HS2]; · iexact HS2
    iintro ⟨H0, H1, H2, H3, H4, H5, ⟨%_, HS0⟩, ⟨%_, HS1⟩, ⟨%_, HS2⟩⟩
    iframe HR Hg Ho H0 H1 H2 H3 H4
    isplitr [H5]
    · isplitl [HS0]; · iapply (Ring.owns_of_writes_tiledL VS1_0 S1024x1.size) $$ HS0; ipureintro; sl_kernel_rfl
      isplitl [HS1]; · iapply (Ring.owns_of_writes_tiledL VS1_1 S1024x1.size) $$ HS1; ipureintro; sl_kernel_rfl
      iapply (Ring.owns_of_writes_tiledL VS1_2 S1024x1024.size) $$ HS2; ipureintro; sl_kernel_rfl
    first | (iexists _; iexact H5) | (icases H5 with ⟨%_, H5⟩; iapply (Ring.owns_of_writes_tiledL VO1_5 S1024x1024.size) $$ H5; ipureintro; sl_kernel_rfl)

theorem hin1 : Pipeline.ΦA spec1 c ⊢ (dat1 V c).Φ 0 := .rfl

theorem hout1 : (dat1 V c).Φ (Fin.last cfg1.N) ⊢ Pipeline.ΦA spec1 c := by
  rw [PhiA1_split]; exact Phi_some V c _

end Cert.KernelIdeal.Fr

end
-- ==== Proof.FrKernelIdeal.Main.lean ====
import proofs.«416823_j31155692765526_3_alg».proof.Proof.Gen.KernelIdeal.Regions
import proofs.«416823_j31155692765526_3_alg».proof.Proof.FrKernelIdeal.R0
import proofs.«416823_j31155692765526_3_alg».proof.Proof.FrKernelIdeal.R1
import Idealize.ShloMosaic.Lib.Pipeline.Kit
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev Vr3 : (c : Dev nD) → (b : Ref sig .tc) → Buf (Elt F) ((c : Thread nD τ).loc b) := fun c b => Gen.V3 m c b
def W4 (c : Dev nD) : Valuation τ sig (Elt F) :=
  Pipeline.withArrays spec0 c (Gen.V3 m c) fun w => (dat0 (Vr3 m) c).arrAt w cfg0.N
def outs4 : Gen.Outs (F := F) := fun _ r c => W4 m c (Proc.devRef .tc r)
abbrev Vr4 : (c : Dev nD) → (b : Ref sig .tc) → Buf (Elt F) ((c : Thread nD τ).loc b) := fun c b => Gen.V4 m (outs4 m) c b
def W5 (c : Dev nD) : Valuation τ sig (Elt F) :=
  Pipeline.withArrays spec1 c (Gen.V4 m (outs4 m) c) fun w => (dat1 (Vr4 m) c).arrAt w cfg1.N
def outs : Gen.Outs (F := F) := fun J => match J with
  | 5 => fun r c => W5 m c (Proc.devRef .tc r)
  | _ => fun r c => W4 m c (Proc.devRef .tc r)
abbrev Vr5 : (c : Dev nD) → (b : Ref sig .tc) → Buf (Elt F) ((c : Thread nD τ).loc b) := fun c b => Gen.V5 m (outs m) c b
theorem V4_v11_0 (c : Dev nD) : Gen.V4 m (outs4 m) c main_v11_0 = (dat0 (Vr3 m) c).arrAt 5 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 5
theorem V4_v11_1 (c : Dev nD) : Gen.V4 m (outs4 m) c main_v11_1 = (dat0 (Vr3 m) c).arrAt 6 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 6
theorem V4_v11_2 (c : Dev nD) : Gen.V4 m (outs4 m) c main_v11_2 = (dat0 (Vr3 m) c).arrAt 7 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 7
theorem V4_v11_3 (c : Dev nD) : Gen.V4 m (outs4 m) c main_v11_3 = (dat0 (Vr3 m) c).arrAt 8 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 8
theorem V4_v11_4 (c : Dev nD) : Gen.V4 m (outs4 m) c main_v11_4 = (dat0 (Vr3 m) c).arrAt 9 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 9
theorem hF0 (c : Dev nD) : ∀ w : Fin cfg0.W, (dat0 (Vr3 m) c).arrAt w cfg0.N = Vr4 m c (Pipeline.arrRef spec0 w)
  | ⟨0, _⟩ | ⟨1, _⟩ | ⟨2, _⟩ | ⟨3, _⟩ | ⟨4, _⟩ => ((dat0 (Vr3 m) c).arrAt_in _ rfl _).trans ((A_eq0 (Vr3 m) c _).trans (Gen.V4_of m (outs4 m) c _ (by decide +revert)).symm)
  | ⟨5, _⟩ => (V4_v11_0 m c).symm
  | ⟨6, _⟩ => (V4_v11_1 m c).symm
  | ⟨7, _⟩ => (V4_v11_2 m c).symm
  | ⟨8, _⟩ => (V4_v11_3 m c).symm
  | ⟨9, _⟩ => (V4_v11_4 m c).symm
theorem hrest0 (c : Dev nD) (b : Ref sig .tc) (hb : b ∉ Finset.univ.image (Pipeline.arrRef spec0)) : Vr4 m c b = Vr3 m c b :=
  Gen.V4_of m (outs4 m) c b fun h => hb ((by decide : ∀ b ∈ ([main_v11_0, main_v11_1, main_v11_2, main_v11_3, main_v11_4] : List (Ref sig .tc)), b ∈ Finset.univ.image (Pipeline.arrRef spec0)) b h)
theorem V5_v12 (c : Dev nD) : Gen.V5 m (outs m) c main_v12 = (dat1 (Vr4 m) c).arrAt 5 cfg1.N := by
  simp only [Gen.V5, Function.update_self]
  exact Pipeline.withArrays_arr spec1 launch1.win.arr_inj c (Gen.V4 m (outs4 m) c) (fun w => (dat1 (Vr4 m) c).arrAt w cfg1.N) 5
theorem hF1 (c : Dev nD) : ∀ w : Fin cfg1.W, (dat1 (Vr4 m) c).arrAt w cfg1.N = Vr5 m c (Pipeline.arrRef spec1 w)
  | ⟨0, _⟩ | ⟨1, _⟩ | ⟨2, _⟩ | ⟨3, _⟩ | ⟨4, _⟩ => ((dat1 (Vr4 m) c).arrAt_in _ rfl _).trans ((A_eq1 (Vr4 m) c _).trans (Gen.V5_of m (outs m) c _ (by decide +revert)).symm)
  | ⟨5, _⟩ => (V5_v12 m c).symm
theorem hrest1 (c : Dev nD) (b : Ref sig .tc) (hb : b ∉ Finset.univ.image (Pipeline.arrRef spec1)) : Vr5 m c b = Vr4 m c b :=
  Gen.V5_of m (outs m) c b fun h => hb ((by decide : ∀ b ∈ ([main_v12] : List (Ref sig .tc)), b ∈ Finset.univ.image (Pipeline.arrRef spec1)) b h)
def pdats : (p : Fin 2) → (c : Dev nD) → Dat τ (Elt F) Unit ℕ (UR sig nD τ) ℕ (Pipeline.pin (pcfgs (F := F)) Gen.adm p) c
  | ⟨0, _⟩ => fun c => dat0 (Vr3 m) c
  | ⟨1, _⟩ => fun c => dat1 (Vr4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem entry_of (c : Dev nD) {Hd A Z Pf S T : sProp 𝕄} {B : Set (SemLoc sig × Unit)}
    (hs : Hd ⊢ iprop(A ∗ Z)) (hp : (BI.emp : sProp 𝕄) ⊢ Pf) (hB : ∀ x, x ∈ B) :
    iprop((Hd ∗ R c) ∗ S ∗ T) ⊢ |={Set.univ}=> iprop(A ∗ Pf ∗ Pipeline.owesWithin c 0 B ∗ (∃ r, prngReg c r) ∗ Z) := by
  iintro ⟨⟨Hh, Hp, %W, HO⟩, -, -⟩
  ihave H := hs $$ Hh
  icases H with ⟨Ha, Hz⟩
  imodintro
  isplitl [Ha]; · iexact Ha
  isplitr; · iapply hp; iempintro
  isplitl [HO]; · iexists W; isplitr; ipureintro; exact fun x _ => hB x; iexact HO
  isplitl [Hp]; · iexact Hp
  iexact Hz
theorem exit_of (c : Dev nD) {Hd A Z : sProp 𝕄} {B : Set (SemLoc sig × Unit)} (hj : iprop(A ∗ Z) ⊢ Hd) :
    iprop(A ∗ Pipeline.owesWithin c 0 B ∗ (∃ r, prngReg c r) ∗ Z) ⊢ |={Set.univ}=> iprop(Hd ∗ R c) := by
  iintro ⟨Ha, ⟨%W, -, HO⟩, HY, Hz⟩
  imodintro
  isplitl [Ha Hz]; · iapply hj; isplitl [Ha] <;> iassumption
  isplitl [HY]; · iexact HY
  iexists W; iexact HO
set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    have hs := Pipeline.arrays_of_unscopedBufs (p := 0) (pcfgs (F := F)) Gen.adm (pdats m) launch0.win launch0.arr_whole c
      ((pdats m 0 c).share_full fun _ => rfl) (Vr3 m c) fun _ => rfl
    rw [Pipeline.unscopedBufs_held] at hs
    exact entry_of c hs (by unfold Pipeline.prefHeld; rw [show (Finset.univ : Finset (Fin 0)) = ∅ from rfl, BI.bigSep_empty]) fun _ => Or.inl trivial
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hj
    exact exit_of c hj
set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr4 m) c).loose
  hwaits := Pipeline.hwaits_of_owed_zero _ _ _ _ L lv 1 fun _ _ => rfl
  pre c := iprop(StableHlo.held (c : Thread nD τ) (Pipeline.ucRefs τ sig) (Gen.V4 m (outs4 m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr4 m c)
  hentry c := by
    have hs := Pipeline.arrays_of_unscopedBufs (p := 1) (pcfgs (F := F)) Gen.adm (pdats m) launch1.win launch1.arr_whole c
      ((pdats m 1 c).share_full fun _ => rfl) (Vr4 m c) fun _ => rfl
    rw [Pipeline.unscopedBufs_held] at hs
    exact entry_of c hs (by unfold Pipeline.prefHeld; rw [show (Finset.univ : Finset (Fin 0)) = ∅ from rfl, BI.bigSep_empty]) fun _ => Or.inl trivial
  hin c := by
    refine BIBase.Entails.trans ?_ (hin1 (Vr4 m) c)
    unfold Pipeline.ΦA
    iintro ⟨Hp, -, Hr⟩
    isplitl [Hr]; · iexact Hr
    iexact Hp
  hout c := by
    rw [Pipeline.ownSems0_none]
    refine BIBase.Entails.trans (hout1 (Vr4 m) c) ?_
    unfold Pipeline.ΦA
    iintro ⟨Hr, Hp⟩
    isplitl [Hp]; · iexact Hp
    isplitr; · iempintro
    iexact Hr
  hexit c := by
    have hj := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr4 m c) (Vr5 m c) ((pdats m 1 c).arrAt · cfg1.N) (hF1 m c) (hrest1 m c)
    rw [Pipeline.unscopedBufs_held] at hj
    exact exit_of c hj
set_option backward.isDefEq.respectTransparency.types false in
theorem run_main : θ_run defs (onTc (τ := τ) (main (F := F))) ⟨m, fun _ => 0, ρ⟩ (fun r => ∀ c : Dev nD,
      r.2.mem ((c.tc : Thread nD τ).loc main_v12) = (dat1 (Vr4 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (Gen.segs m 𝒱₀ L lv (E (F := F)) () (pdats m) (reg0 m) (reg1 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, sep_assoc.2⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c =>
      have mem_uc : ∀ (b : Ref sig .tc), ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v12 (by decide))).trans (V5_v12 m c),
       (h c _ (mem_uc main_arg0 (by decide))).trans (Gen.V5_main_arg0 m (outs m) c),
       (h c _ (mem_uc main_arg1 (by decide))).trans (Gen.V5_main_arg1 m (outs m) c),
       (h c _ (mem_uc main_arg2 (by decide))).trans (Gen.V5_main_arg2 m (outs m) c),
       (h c _ (mem_uc main_arg3 (by decide))).trans (Gen.V5_main_arg3 m (outs m) c),
       (h c _ (mem_uc main_arg4 (by decide))).trans (Gen.V5_main_arg4 m (outs m) c),
       (h c _ (mem_uc main_arg5 (by decide))).trans (Gen.V5_main_arg5 m (outs m) c)⟩)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)
end Cert.KernelIdeal.Fr
end
-- ==== Proof.FrKernel.R0.lean ====
import proofs.«416823_j31155692765526_3_alg».proof.Proof.Gen.Kernel.Launch
import proofs.«416823_j31155692765526_3_alg».proof.Proof.Gen.Kernel.Skeleton
import proofs.«416823_j31155692765526_3_alg».proof.Proof.Gen.Kernel.Points
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S512x1024 := Rect.unit (s := S512x1024) ![0, 0] S512x1024.size inb_S512x1024_S512x1024_0_0
abbrev r0_gain : Rect S1024 := Rect.unit (s := S1024) ![0] S1024.size inb_S1024_S1024_0
abbrev r0_wqk : Rect S1024x2048 := Rect.unit (s := S1024x2048) ![0, 0] S1024x2048.size inb_S1024x2048_S1024x2048_0_0
abbrev r0_wv : Rect S1024x1024 := Rect.unit (s := S1024x1024) ![0, 0] S1024x1024.size inb_S1024x1024_S1024x1024_0_0

section
variable (x0 : Vec F S512x1024 .f32) (x1 : Vec F S1024 .f32) (x2 x3 : Vec F S1024x2048 .bf16) (x4 : Vec F S1024x1024 .bf16)
def out0_5 : Vec F S512x1024 .bf16 :=
  View.canon [⟨r0_rows, k0_pay7 (View.ld x0 r0_rows) (View.ld x1 r0_gain) (View.ld x2 r0_wqk) (View.ld x3 r0_wqk) (View.ld x2 r0_wqk)⟩]
def out0_6 : Vec F S512x1024 .bf16 :=
  View.canon [⟨r0_rows, k0_pay8 (View.ld x0 r0_rows) (View.ld x1 r0_gain) (View.ld x2 r0_wqk) (View.ld x3 r0_wqk) (View.ld x2 r0_wqk)⟩]
def out0_7 : Vec F S512x1024 .bf16 :=
  View.canon [⟨r0_rows, k0_pay9 (View.ld x0 r0_rows) (View.ld x1 r0_gain) (View.ld x2 r0_wqk) (View.ld x3 r0_wqk) (View.ld x2 r0_wqk)⟩]
def out0_8 : Vec F S512x1024 .bf16 :=
  View.canon [⟨r0_rows, k0_pay10 (View.ld x0 r0_rows) (View.ld x1 r0_gain) (View.ld x2 r0_wqk) (View.ld x3 r0_wqk) (View.ld x2 r0_wqk)⟩]
def out0_9 : Vec F S512x1024 .bf16 :=
  View.canon [⟨r0_rows, k0_pay1 (k0_pay3 (View.ld x0 r0_rows) (View.ld x1 r0_gain)) (View.ld x4 r0_wv)⟩]
end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> exact (dat0 V c).before_in_eq_fetched _ rfl (fun _ => rfl) (fun _ _ _ => rfl) (fun _ => rfl) t

-- a rectangle of the block's own size at the origin covers the block
theorem cover0_out (p0 : Vec F S512x1024 .bf16) (y : S512x1024.Idx) :
    ∃ pc ∈ ([⟨r0_rows, p0⟩] : List (View.Piece (Elt F) S512x1024 .bf16)), y ∈ pc.1.set :=
  View.cover_of_tiled [⟨r0_rows, p0⟩] S512x1024.size (by rfl) y

-- with the five input blocks named, the body is a straight line of whole-block loads and stores: each output ends as one store's payload
theorem body_obligation0 (c : Dev nD) : BodyObligation (dat0 (F := F) V c) (defs₀ (F := F)) Variants.none () Set.univ := fun t => by
  obtain ⟨h0, h1, h2, h3, h4⟩ := before0 V c t
  rw [bigSep_W0, bigSep_W0]
  simp only [h0, h1, h2, h3, h4]
  dsimp only [dat0]
  generalize iblk0 V c 0 t = x0
  generalize iblk0 V c 1 t = x1
  generalize iblk0 V c 2 t = x2
  generalize iblk0 V c 3 t = x3
  generalize iblk0 V c 4 t = x4
  sl_whnfR [defs₀, Defs.onTc]
  simp only [cc0__qkv_kernel_eq_skeleton]; unfold cc0__qkv_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%d5, %f5, -, H5⟩, ⟨%d6, %f6, -, H6⟩, ⟨%d7, %f7, -, H7⟩, ⟨%d8, %f8, -, H8⟩, ⟨%d9, %f9, -, H9⟩⟩
  subst hf0 hf1 hf2 hf3 hf4
  sl_exec
  sl_step
  isplitl [HΦ]; · iexact HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists _; isplitr; swap; iexact H5; ipureintro; exact View.read_writes_eq_canon _ _ _ (cover0_out _)
  isplitl [H6]; · iexists _; isplitr; swap; iexact H6; ipureintro; exact View.read_writes_eq_canon _ _ _ (cover0_out _)
  isplitl [H7]; · iexists _; isplitr; swap; iexact H7; ipureintro; exact View.read_writes_eq_canon _ _ _ (cover0_out _)
  isplitl [H8]; · iexists _; isplitr; swap; iexact H8; ipureintro; exact View.read_writes_eq_canon _ _ _ (cover0_out _)
  iexists _; isplitr; swap; iexact H9; ipureintro; exact View.read_writes_eq_canon _ _ _ (cover0_out _)

end Cert.Kernel.Fr

end
-- ==== Proof.FrKernel.R1Runs.lean ====
import proofs.«416823_j31155692765526_3_alg».proof.Proof.Gen.Kernel.Launch
import proofs.«416823_j31155692765526_3_alg».proof.Proof.Gen.Kernel.Skeleton
import proofs.«416823_j31155692765526_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev VO1_5 : View sig .tc .vmem S1024x1024 .f32 := (Memref.whole cc1_stg5_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

-- Raw contents that read x are contents of a memref owned at x.
theorem owns_unread (c : Dev nD) {s : Shape} {e : EltTy} {m : Memref sig .tc .vmem s e} (h : m.IsWhole) (x : s.Idx → Elt F e) :
    (iprop(m.view.loc (c : Thread nD τ) ↦[m.view.set]{fullShare} h.unread x) : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

end Cert.Kernel.Fr

end
-- ==== Proof.FrKernel.R1RunA.lean ====
import proofs.«416823_j31155692765526_3_alg».proof.Proof.FrKernel.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 x3 x4 : Vec F S1024x1024 .bf16) :
    Σ' (L5 : List (View.Piece (Elt F) S1024x1024 .f32)) (LS0 LS1 : List (View.Piece (Elt F) S1024x1 .f32)), { LS2 : List (View.Piece (Elt F) S1024x1024 .f32) //
      ∀ (xi5 : Vec F S1024x1024 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare xi5 ∗ (∃ d, owns c arg8 fullShare d) ∗ (∃ d, owns c arg9 fullShare d) ∗ (∃ d, owns c arg10 fullShare d)
            ∗ (iprop(owns c arg2 fullShare x0 ∗ owns c arg3 fullShare x1 ∗ owns c arg4 fullShare x2 ∗ owns c arg5 fullShare x3 ∗ owns c arg6 fullShare x4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [HS0]; · iexists _; iexact HS0
    isplitl [HS1]; · iexists _; iexact HS1
    iexists _; iexact HS2

end Cert.Kernel.Fr

end
-- ==== Proof.FrKernel.R1RunB.lean ====
import proofs.«416823_j31155692765526_3_alg».proof.Proof.FrKernel.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 x3 x4 : Vec F S1024x1024 .bf16) (xs0 xs1 : Vec F S1024x1 .f32) (xs2 : Vec F S1024x1024 .f32) :
    Σ' (L5 : List (View.Piece (Elt F) S1024x1024 .f32)) (LS0 LS1 : List (View.Piece (Elt F) S1024x1 .f32)), { LS2 : List (View.Piece (Elt F) S1024x1024 .f32) //
      ∀ (xi5 : Vec F S1024x1024 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare xi5 ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare x3 ∗ owns c arg6 fullShare x4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    isplitl [HS0]; · iexists _; iexact HS0
    isplitl [HS1]; · iexists _; iexact HS1
    iexists _; iexact HS2

end Cert.Kernel.Fr

end
-- ==== Proof.FrKernel.R1RunC.lean ====
import proofs.«416823_j31155692765526_3_alg».proof.Proof.FrKernel.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 x3 x4 : Vec F S1024x1024 .bf16) (xs0 xs1 : Vec F S1024x1 .f32) (xs2 : Vec F S1024x1024 .f32) :
    Σ' (L5 : List (View.Piece (Elt F) S1024x1024 .f32)) (LS0 LS1 : List (View.Piece (Elt F) S1024x1 .f32)), { LS2 : List (View.Piece (Elt F) S1024x1024 .f32) //
      ∀ (E : Set ℕ) (K : PUnit → sProp 𝕄),
        iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare x3 ∗ owns c arg6 fullShare x4 ∗ (∃ f, arg7.view.loc c ↦[arg7.view.set]{fullShare} arg7.view.writes (Elt F) f L5) ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iexists _; iexact H5
    isplitl [HS0]; · iexists _; iexact HS0
    isplitl [HS1]; · iexists _; iexact HS1
    iexists _; iexact HS2

end Cert.Kernel.Fr

end
-- ==== Proof.FrKernel.R1.lean ====
import proofs.«416823_j31155692765526_3_alg».proof.Proof.FrKernel.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases

variable (c : Dev nD) (i : grid1.Coords)
  (arg2 : Memref sig .tc .vmem S1024x1024 .bf16) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S1024x1024 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1024 .f32) (harg10 : arg10.IsWhole)

local notation "runA" => kernelRun1_A c i arg2 harg2 arg3 harg3 arg4 harg4 arg5 harg5 arg6 harg6 arg7 harg7 arg8 harg8 arg9 harg9 arg10 harg10
local notation "runB" => kernelRun1_B c i arg2 harg2 arg3 harg3 arg4 harg4 arg5 harg5 arg6 harg6 arg7 harg7 arg8 harg8 arg9 harg9 arg10 harg10
local notation "runC" => kernelRun1_C c i arg2 harg2 arg3 harg3 arg4 harg4 arg5 harg5 arg6 harg6 arg7 harg7 arg8 harg8 arg9 harg9 arg10 harg10

section
variable (hc0 : cond1_0 i) (hc1 : ¬cond1_1 i) (x0 x1 x2 x3 x4 : Vec F S1024x1024 .bf16)
def out1_A_5 : Vec F S1024x1024 .f32 := VO1_5.read (Elt F) (VO1_5.writes (Elt F) VO1_5.junk (runA hc0 hc1 x0 x1 x2 x3 x4).1)
def sout1_A_0 : Vec F S1024x1 .f32 := VS1_0.read (Elt F) (VS1_0.writes (Elt F) VS1_0.junk (runA hc0 hc1 x0 x1 x2 x3 x4).2.1)
def sout1_A_1 : Vec F S1024x1 .f32 := VS1_1.read (Elt F) (VS1_1.writes (Elt F) VS1_1.junk (runA hc0 hc1 x0 x1 x2 x3 x4).2.2.1)
def sout1_A_2 : Vec F S1024x1024 .f32 := VS1_2.read (Elt F) (VS1_2.writes (Elt F) VS1_2.junk (runA hc0 hc1 x0 x1 x2 x3 x4).2.2.2.1)
end

variable (hc0 : ¬cond1_0 i)

section
variable (hc1 : ¬cond1_1 i) (x0 x1 x2 x3 x4 : Vec F S1024x1024 .bf16) (xs0 xs1 : Vec F S1024x1 .f32) (xs2 : Vec F S1024x1024 .f32)
def out1_B_5 : Vec F S1024x1024 .f32 := VO1_5.read (Elt F) (VO1_5.writes (Elt F) VO1_5.junk (runB hc0 hc1 x0 x1 x2 x3 x4 xs0 xs1 xs2).1)
def sout1_B_0 : Vec F S1024x1 .f32 := VS1_0.read (Elt F) (VS1_0.writes (Elt F) VS1_0.junk (runB hc0 hc1 x0 x1 x2 x3 x4 xs0 xs1 xs2).2.1)
def sout1_B_1 : Vec F S1024x1 .f32 := VS1_1.read (Elt F) (VS1_1.writes (Elt F) VS1_1.junk (runB hc0 hc1 x0 x1 x2 x3 x4 xs0 xs1 xs2).2.2.1)
def sout1_B_2 : Vec F S1024x1024 .f32 := VS1_2.read (Elt F) (VS1_2.writes (Elt F) VS1_2.junk (runB hc0 hc1 x0 x1 x2 x3 x4 xs0 xs1 xs2).2.2.2.1)
end

variable (hc1 : cond1_1 i) (x0 x1 x2 x3 x4 : Vec F S1024x1024 .bf16) (xs0 xs1 : Vec F S1024x1 .f32) (xs2 : Vec F S1024x1024 .f32)
def out1_C_5 : Vec F S1024x1024 .f32 := VO1_5.read (Elt F) (VO1_5.writes (Elt F) VO1_5.junk (runC hc0 hc1 x0 x1 x2 x3 x4 xs0 xs1 xs2).1)
def sout1_C_0 : Vec F S1024x1 .f32 := VS1_0.read (Elt F) (VS1_0.writes (Elt F) VS1_0.junk (runC hc0 hc1 x0 x1 x2 x3 x4 xs0 xs1 xs2).2.1)
def sout1_C_1 : Vec F S1024x1 .f32 := VS1_1.read (Elt F) (VS1_1.writes (Elt F) VS1_1.junk (runC hc0 hc1 x0 x1 x2 x3 x4 xs0 xs1 xs2).2.2.1)
def sout1_C_2 : Vec F S1024x1024 .f32 := VS1_2.read (Elt F) (VS1_2.writes (Elt F) VS1_2.junk (runC hc0 hc1 x0 x1 x2 x3 x4 xs0 xs1 xs2).2.2.2.1)

end Cases

local notation:max "atPt(" f ", " c ", " t ", " a ", " b ")" => f c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) a b (iblk1 V c 0 t) (iblk1 V c 1 t) (iblk1 V c 2 t) (iblk1 V c 3 t) (iblk1 V c 4 t)

variable (c : Dev nD) (t : Fin cfg1.N)

def atA1 (hc0 : cond1_0 (grid1.coords t)) (hc1 : ¬cond1_1 (grid1.coords t)) :
    Vec F S1024x1024 .f32 × Vec F S1024x1 .f32 × Vec F S1024x1 .f32 × Vec F S1024x1024 .f32 :=
  (atPt(out1_A_5, c, t, hc0, hc1), atPt(sout1_A_0, c, t, hc0, hc1), atPt(sout1_A_1, c, t, hc0, hc1), atPt(sout1_A_2, c, t, hc0, hc1))

def atB1 (hc0 : ¬cond1_0 (grid1.coords t)) (hc1 : ¬cond1_1 (grid1.coords t))
    (p : Vec F S1024x1 .f32 × Vec F S1024x1 .f32 × Vec F S1024x1024 .f32) :
    Vec F S1024x1024 .f32 × Vec F S1024x1 .f32 × Vec F S1024x1 .f32 × Vec F S1024x1024 .f32 :=
  (atPt(out1_B_5, c, t, hc0, hc1) p.1 p.2.1 p.2.2, atPt(sout1_B_0, c, t, hc0, hc1) p.1 p.2.1 p.2.2,
    atPt(sout1_B_1, c, t, hc0, hc1) p.1 p.2.1 p.2.2, atPt(sout1_B_2, c, t, hc0, hc1) p.1 p.2.1 p.2.2)

def atC1 (hc0 : ¬cond1_0 (grid1.coords t)) (hc1 : cond1_1 (grid1.coords t))
    (p : Vec F S1024x1 .f32 × Vec F S1024x1 .f32 × Vec F S1024x1024 .f32) :
    Vec F S1024x1024 .f32 × Vec F S1024x1 .f32 × Vec F S1024x1 .f32 × Vec F S1024x1024 .f32 :=
  (atPt(out1_C_5, c, t, hc0, hc1) p.1 p.2.1 p.2.2, atPt(sout1_C_0, c, t, hc0, hc1) p.1 p.2.1 p.2.2,
    atPt(sout1_C_1, c, t, hc0, hc1) p.1 p.2.1 p.2.2, atPt(sout1_C_2, c, t, hc0, hc1) p.1 p.2.1 p.2.2)

/-- The output block and the running maximum, sum and weighted sum after position n: n % 4 decides the case; B and C build on position n - 1. -/
def outsAt1 : (n : ℕ) → n < cfg1.N →
    Vec F S1024x1024 .f32 × Vec F S1024x1 .f32 × Vec F S1024x1 .f32 × Vec F S1024x1024 .f32
  | 0, hn => atA1 V c ⟨0, hn⟩ ((hcond1_0 ⟨0, hn⟩).mpr (Nat.zero_mod _)) (fun h => absurd ((hcond1_1 ⟨0, hn⟩).mp h) (show ¬(0 % 4 = 3) by decide))
  | n + 1, hn =>
    if h0 : (n + 1) % 4 = 0 then
      if h1 : (n + 1) % 4 = 3 then
        False.elim (by omega)
      else
        atA1 V c ⟨n + 1, hn⟩ ((hcond1_0 ⟨n + 1, hn⟩).mpr h0) (fun h => h1 ((hcond1_1 ⟨n + 1, hn⟩).mp h))
    else
      if h1 : (n + 1) % 4 = 3 then
        atC1 V c ⟨n + 1, hn⟩ (fun h => h0 ((hcond1_0 ⟨n + 1, hn⟩).mp h)) ((hcond1_1 ⟨n + 1, hn⟩).mpr h1)
          (outsAt1 n (Nat.lt_of_succ_lt hn)).2
      else
        atB1 V c ⟨n + 1, hn⟩ (fun h => h0 ((hcond1_0 ⟨n + 1, hn⟩).mp h)) (fun h => h1 ((hcond1_1 ⟨n + 1, hn⟩).mp h))
          (outsAt1 n (Nat.lt_of_succ_lt hn)).2

theorem outsAt1_A (h0 : t.val % 4 = 0) (h1 : ¬t.val % 4 = 3) :
    outsAt1 V c t.val t.isLt = atA1 V c t ((hcond1_0 t).mpr h0) (fun h => h1 ((hcond1_1 t).mp h)) := by
  obtain ⟨_ | n, hn⟩ := t
  · rfl
  · exact (dif_pos h0).trans (dif_neg h1)

theorem outsAt1_B (h0 : ¬t.val % 4 = 0) (h1 : ¬t.val % 4 = 3) :
    outsAt1 V c t.val t.isLt = atB1 V c t (fun h => h0 ((hcond1_0 t).mp h)) (fun h => h1 ((hcond1_1 t).mp h))
      (outsAt1 V c (t.val - 1) (Nat.lt_of_le_of_lt (Nat.sub_le _ _) t.isLt)).2 := by
  obtain ⟨_ | n, hn⟩ := t
  · exact absurd (Nat.zero_mod _) h0
  · exact (dif_neg h0).trans (dif_neg h1)

theorem outsAt1_C (h0 : ¬t.val % 4 = 0) (h1 : t.val % 4 = 3) :
    outsAt1 V c t.val t.isLt = atC1 V c t (fun h => h0 ((hcond1_0 t).mp h)) ((hcond1_1 t).mpr h1)
      (outsAt1 V c (t.val - 1) (Nat.lt_of_le_of_lt (Nat.sub_le _ _) t.isLt)).2 := by
  obtain ⟨_ | n, hn⟩ := t
  · exact absurd (Nat.zero_mod _) h0
  · exact (dif_neg h0).trans (dif_pos h1)

abbrev some1 : sProp 𝕄 :=
  iprop((((∃ d, owns (c : Thread nD τ) scM1_0 fullShare d) ∗ (∃ d, owns (c : Thread nD τ) scM1_1 fullShare d) ∗ (∃ d, owns (c : Thread nD τ) scM1_2 fullShare d)) ∗ Pipeline.scopedRestBut spec1 c [cc1_scratch0, cc1_scratch1, cc1_scratch2]) ∗ (∃ r, prngReg c r))

/-- ΦA regrouped: the three running quantities at some contents, then all else. -/
theorem PhiA1_split : (Pipeline.ΦA spec1 c : sProp 𝕄) = some1 c := by
  unfold Pipeline.ΦA
  rw [Pipeline.scopedRest_split_of_list spec1 c [cc1_scratch0, cc1_scratch1, cc1_scratch2] (by decide) (by decide)]
  simp only [some1, scM1_0, scM1_1, scM1_2, owns_whole]; rfl

/-- The three running quantities at exactly the contents p, beside all else. -/
def inv1 (p : Vec F S1024x1 .f32 × Vec F S1024x1 .f32 × Vec F S1024x1024 .f32) : sProp 𝕄 :=
  iprop(((owns (c : Thread nD τ) scM1_0 fullShare p.1 ∗ owns (c : Thread nD τ) scM1_1 fullShare p.2.1 ∗ owns (c : Thread nD τ) scM1_2 fullShare p.2.2) ∗ Pipeline.scopedRestBut spec1 c [cc1_scratch0, cc1_scratch1, cc1_scratch2]) ∗ (∃ r, prngReg c r))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := if h : t.val = 0 then Pipeline.ΦA spec1 c else inv1 c (outsAt1 V c (t.val - 1) (by omega)).2
  q _ := fullShare
  owed _ := 0

theorem A_eq1 (w : Fin cfg1.W) : (dat1 V c).A w = V c (Pipeline.arrRef spec1 w) := rfl

theorem after1_5 : (dat1 V c).after 5 t = (outsAt1 V c t.val t.isLt).1 := rfl

/-- Forgetting the contents turns the invariant at any position back into ΦA, regrouped. -/
theorem Phi_some (t) : (dat1 V c).Φ t ⊢ some1 c := by
  dsimp only [dat1]; split
  · rw [PhiA1_split]
  · unfold inv1 some1
    iintro ⟨⟨⟨H0, H1, H2⟩, HR⟩, Hg⟩
    iframe HR Hg
    isplitl [H0]; · iexists _; iexact H0
    isplitl [H1]; · iexists _; iexact H1
    iexists _; iexact H2

theorem Phi_succ : (dat1 V c).Φ t.succ = inv1 c (outsAt1 V c t.val t.isLt).2 := by
  unfold dat1; dsimp only; exact dif_neg (Nat.succ_ne_zero _)

theorem Phi_pos (hz : t.val ≠ 0) :
    (dat1 V c).Φ t.castSucc = inv1 c (outsAt1 V c (t.val - 1) (Nat.lt_of_le_of_lt (Nat.sub_le _ _) t.isLt)).2 := dif_neg hz

theorem live1 : ∀ (w : Fin cfg1.W) (t : Fin cfg1.N), w ≠ 5 → cfg1.idle w (cfg1.grid.coords t) = false := by decide +kernel
theorem idle1_5 : ∀ t : Fin cfg1.N, ¬cond1_1 (grid1.coords t) → idle1 5 (grid1.coords t) = true ∧ (win1 5).flush t = false := by decide +kernel
theorem live1_5 : ∀ t : Fin cfg1.N, cond1_1 (grid1.coords t) → idle1 5 (grid1.coords t) = false := by decide +kernel

theorem before1 : (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ ∀ d, (dat1 V c).before 4 t d = iblk1 V c 4 t := by
  refine ⟨?_, ?_, ?_, ?_, ?_⟩ <;> exact (dat1 V c).before_in_eq_fetched _ rfl (fun _ => rfl) (fun _ _ _ => rfl) (fun _ => rfl) t

theorem after1 : (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t := ⟨rfl, rfl, rfl, rfl, rfl⟩

/-- In each case the pieces written tile each running quantity, so what is left is what outsAt1 defines. -/
theorem body_obligation1 : BodyObligation (dat1 (F := F) V c) (defs₀ (F := F)) Variants.none () Set.univ := fun t => by
  rw [show (dat1 V c).owesAt () t.succ = (dat1 V c).owesAt () t.castSucc from rfl]
  simp (disch := decide) only [bigSep_W1, live1, before1 V c t, after1 V c t, Phi_succ]
  by_cases h0 : t.val % 4 = 0
  on_goal 2 => by_cases h1 : t.val % 4 = 3
  on_goal 3 =>
    have hc1 := mt (hcond1_1 t).mp h1
    simp only [idle1_5 t hc1]; rw [Phi_pos V c t (by omega), outsAt1_B V c t h0 h1]
    unfold inv1 atB1 sout1_B_0 sout1_B_1 sout1_B_2; dsimp only
    iintro ⟨⟨⟨⟨HS0, HS1, HS2⟩, HR⟩, Hg⟩, Ho, ⟨%_, H0⟩, ⟨%_, H1⟩, ⟨%_, H2⟩, ⟨%_, H3⟩, ⟨%_, H4⟩, ⟨%_, H5⟩⟩
    iapply ((atPt(kernelRun1_B, c, t, mt (hcond1_0 t).mp h0, hc1) _ _ _).2.2.2.2 _ Set.univ _)
  on_goal 2 =>
    have hc1 := (hcond1_1 t).mpr h1
    simp only [live1_5 t hc1]; rw [after1_5, Phi_pos V c t (by omega), outsAt1_C V c t h0 h1]
    unfold inv1 atC1 out1_C_5 sout1_C_0 sout1_C_1 sout1_C_2; dsimp only
    iintro ⟨⟨⟨⟨HS0, HS1, HS2⟩, HR⟩, Hg⟩, Ho, ⟨%_, H0⟩, ⟨%_, H1⟩, ⟨%_, H2⟩, ⟨%_, H3⟩, ⟨%_, H4⟩, ⟨%_, H5⟩⟩
    iapply ((atPt(kernelRun1_C, c, t, mt (hcond1_0 t).mp h0, hc1) _ _ _).2.2.2.2 Set.univ _)
  on_goal 1 =>
    have h1 : ¬t.val % 4 = 3 := by omega
    have hc1 := mt (hcond1_1 t).mp h1
    simp only [idle1_5 t hc1]; rw [outsAt1_A V c t h0 h1]
    unfold inv1 atA1 sout1_A_0 sout1_A_1 sout1_A_2; dsimp only
    iintro ⟨HΦ, Ho, ⟨%_, H0⟩, ⟨%_, H1⟩, ⟨%_, H2⟩, ⟨%_, H3⟩, ⟨%_, H4⟩, ⟨%_, H5⟩⟩
    ihave HΦ := (Phi_some V c _) $$ HΦ
    icases HΦ with ⟨⟨⟨HS0, HS1, HS2⟩, HR⟩, Hg⟩
    iapply (atPt(kernelRun1_A, c, t, (hcond1_0 t).mpr h0, hc1).2.2.2.2 _ Set.univ _)
  all_goals
    isplitl [H0]; · iexact H0
    isplitl [H1]; · iexact H1
    isplitl [H2]; · iexact H2
    isplitl [H3]; · iexact H3
    isplitl [H4]; · iexact H4
    isplitl [H5]; · first | iexact H5 | (iexists _; iexact H5)
    isplitl [HS0]; · iexact HS0
    isplitl [HS1]; · iexact HS1
    isplitl [HS2]; · iexact HS2
    iintro ⟨H0, H1, H2, H3, H4, H5, ⟨%_, HS0⟩, ⟨%_, HS1⟩, ⟨%_, HS2⟩⟩
    iframe HR Hg Ho H0 H1 H2 H3 H4
    isplitr [H5]
    · isplitl [HS0]; · iapply (Ring.owns_of_writes_tiledL VS1_0 S1024x1.size) $$ HS0; ipureintro; sl_kernel_rfl
      isplitl [HS1]; · iapply (Ring.owns_of_writes_tiledL VS1_1 S1024x1.size) $$ HS1; ipureintro; sl_kernel_rfl
      iapply (Ring.owns_of_writes_tiledL VS1_2 S1024x1024.size) $$ HS2; ipureintro; sl_kernel_rfl
    first | (iexists _; iexact H5) | (icases H5 with ⟨%_, H5⟩; iapply (Ring.owns_of_writes_tiledL VO1_5 S1024x1024.size) $$ H5; ipureintro; sl_kernel_rfl)

theorem hin1 : Pipeline.ΦA spec1 c ⊢ (dat1 V c).Φ 0 := .rfl

theorem hout1 : (dat1 V c).Φ (Fin.last cfg1.N) ⊢ Pipeline.ΦA spec1 c := by
  rw [PhiA1_split]; exact Phi_some V c _

end Cert.Kernel.Fr

end
-- ==== Proof.FrKernel.Main.lean ====
import proofs.«416823_j31155692765526_3_alg».proof.Proof.Gen.Kernel.Regions
import proofs.«416823_j31155692765526_3_alg».proof.Proof.FrKernel.R0
import proofs.«416823_j31155692765526_3_alg».proof.Proof.FrKernel.R1
import Idealize.ShloMosaic.Lib.Pipeline.Kit
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev Vr3 : (c : Dev nD) → (b : Ref sig .tc) → Buf (Elt F) ((c : Thread nD τ).loc b) := fun c b => Gen.V3 m c b
def W4 (c : Dev nD) : Valuation τ sig (Elt F) :=
  Pipeline.withArrays spec0 c (Gen.V3 m c) fun w => (dat0 (Vr3 m) c).arrAt w cfg0.N
def outs4 : Gen.Outs (F := F) := fun _ r c => W4 m c (Proc.devRef .tc r)
abbrev Vr4 : (c : Dev nD) → (b : Ref sig .tc) → Buf (Elt F) ((c : Thread nD τ).loc b) := fun c b => Gen.V4 m (outs4 m) c b
def W5 (c : Dev nD) : Valuation τ sig (Elt F) :=
  Pipeline.withArrays spec1 c (Gen.V4 m (outs4 m) c) fun w => (dat1 (Vr4 m) c).arrAt w cfg1.N
def outs : Gen.Outs (F := F) := fun J => match J with
  | 5 => fun r c => W5 m c (Proc.devRef .tc r)
  | _ => fun r c => W4 m c (Proc.devRef .tc r)
abbrev Vr5 : (c : Dev nD) → (b : Ref sig .tc) → Buf (Elt F) ((c : Thread nD τ).loc b) := fun c b => Gen.V5 m (outs m) c b
theorem V4_v11_0 (c : Dev nD) : Gen.V4 m (outs4 m) c main_v11_0 = (dat0 (Vr3 m) c).arrAt 5 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 5
theorem V4_v11_1 (c : Dev nD) : Gen.V4 m (outs4 m) c main_v11_1 = (dat0 (Vr3 m) c).arrAt 6 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 6
theorem V4_v11_2 (c : Dev nD) : Gen.V4 m (outs4 m) c main_v11_2 = (dat0 (Vr3 m) c).arrAt 7 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 7
theorem V4_v11_3 (c : Dev nD) : Gen.V4 m (outs4 m) c main_v11_3 = (dat0 (Vr3 m) c).arrAt 8 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 8
theorem V4_v11_4 (c : Dev nD) : Gen.V4 m (outs4 m) c main_v11_4 = (dat0 (Vr3 m) c).arrAt 9 cfg0.N := by
  simp (disch := exact StableHlo.devRef_ne_of_ne (by decide)) only [Gen.V4, Function.update_self, Function.update_of_ne]
  exact Pipeline.withArrays_arr spec0 launch0.win.arr_inj c (Gen.V3 m c) (fun w => (dat0 (Vr3 m) c).arrAt w cfg0.N) 9
theorem hF0 (c : Dev nD) : ∀ w : Fin cfg0.W, (dat0 (Vr3 m) c).arrAt w cfg0.N = Vr4 m c (Pipeline.arrRef spec0 w)
  | ⟨0, _⟩ | ⟨1, _⟩ | ⟨2, _⟩ | ⟨3, _⟩ | ⟨4, _⟩ => ((dat0 (Vr3 m) c).arrAt_in _ rfl _).trans ((A_eq0 (Vr3 m) c _).trans (Gen.V4_of m (outs4 m) c _ (by decide +revert)).symm)
  | ⟨5, _⟩ => (V4_v11_0 m c).symm
  | ⟨6, _⟩ => (V4_v11_1 m c).symm
  | ⟨7, _⟩ => (V4_v11_2 m c).symm
  | ⟨8, _⟩ => (V4_v11_3 m c).symm
  | ⟨9, _⟩ => (V4_v11_4 m c).symm
theorem hrest0 (c : Dev nD) (b : Ref sig .tc) (hb : b ∉ Finset.univ.image (Pipeline.arrRef spec0)) : Vr4 m c b = Vr3 m c b :=
  Gen.V4_of m (outs4 m) c b fun h => hb ((by decide : ∀ b ∈ ([main_v11_0, main_v11_1, main_v11_2, main_v11_3, main_v11_4] : List (Ref sig .tc)), b ∈ Finset.univ.image (Pipeline.arrRef spec0)) b h)
theorem V5_v12 (c : Dev nD) : Gen.V5 m (outs m) c main_v12 = (dat1 (Vr4 m) c).arrAt 5 cfg1.N := by
  simp only [Gen.V5, Function.update_self]
  exact Pipeline.withArrays_arr spec1 launch1.win.arr_inj c (Gen.V4 m (outs4 m) c) (fun w => (dat1 (Vr4 m) c).arrAt w cfg1.N) 5
theorem hF1 (c : Dev nD) : ∀ w : Fin cfg1.W, (dat1 (Vr4 m) c).arrAt w cfg1.N = Vr5 m c (Pipeline.arrRef spec1 w)
  | ⟨0, _⟩ | ⟨1, _⟩ | ⟨2, _⟩ | ⟨3, _⟩ | ⟨4, _⟩ => ((dat1 (Vr4 m) c).arrAt_in _ rfl _).trans ((A_eq1 (Vr4 m) c _).trans (Gen.V5_of m (outs m) c _ (by decide +revert)).symm)
  | ⟨5, _⟩ => (V5_v12 m c).symm
theorem hrest1 (c : Dev nD) (b : Ref sig .tc) (hb : b ∉ Finset.univ.image (Pipeline.arrRef spec1)) : Vr5 m c b = Vr4 m c b :=
  Gen.V5_of m (outs m) c b fun h => hb ((by decide : ∀ b ∈ ([main_v12] : List (Ref sig .tc)), b ∈ Finset.univ.image (Pipeline.arrRef spec1)) b h)
def pdats : (p : Fin 2) → (c : Dev nD) → Dat τ (Elt F) Unit ℕ (UR sig nD τ) ℕ (Pipeline.pin (pcfgs (F := F)) Gen.adm p) c
  | ⟨0, _⟩ => fun c => dat0 (Vr3 m) c
  | ⟨1, _⟩ => fun c => dat1 (Vr4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem entry_of (c : Dev nD) {Hd A Z Pf S T : sProp 𝕄} {B : Set (SemLoc sig × Unit)}
    (hs : Hd ⊢ iprop(A ∗ Z)) (hp : (BI.emp : sProp 𝕄) ⊢ Pf) (hB : ∀ x, x ∈ B) :
    iprop((Hd ∗ R c) ∗ S ∗ T) ⊢ |={Set.univ}=> iprop(A ∗ Pf ∗ Pipeline.owesWithin c 0 B ∗ (∃ r, prngReg c r) ∗ Z) := by
  iintro ⟨⟨Hh, Hp, %W, HO⟩, -, -⟩
  ihave H := hs $$ Hh
  icases H with ⟨Ha, Hz⟩
  imodintro
  isplitl [Ha]; · iexact Ha
  isplitr; · iapply hp; iempintro
  isplitl [HO]; · iexists W; isplitr; ipureintro; exact fun x _ => hB x; iexact HO
  isplitl [Hp]; · iexact Hp
  iexact Hz
theorem exit_of (c : Dev nD) {Hd A Z : sProp 𝕄} {B : Set (SemLoc sig × Unit)} (hj : iprop(A ∗ Z) ⊢ Hd) :
    iprop(A ∗ Pipeline.owesWithin c 0 B ∗ (∃ r, prngReg c r) ∗ Z) ⊢ |={Set.univ}=> iprop(Hd ∗ R c) := by
  iintro ⟨Ha, ⟨%W, -, HO⟩, HY, Hz⟩
  imodintro
  isplitl [Ha Hz]; · iapply hj; isplitl [Ha] <;> iassumption
  isplitl [HY]; · iexact HY
  iexists W; iexact HO
set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    have hs := Pipeline.arrays_of_unscopedBufs (p := 0) (pcfgs (F := F)) Gen.adm (pdats m) launch0.win launch0.arr_whole c
      ((pdats m 0 c).share_full fun _ => rfl) (Vr3 m c) fun _ => rfl
    rw [Pipeline.unscopedBufs_held] at hs
    exact entry_of c hs (by unfold Pipeline.prefHeld; rw [show (Finset.univ : Finset (Fin 0)) = ∅ from rfl, BI.bigSep_empty]) fun _ => Or.inl trivial
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hj
    exact exit_of c hj
set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr4 m) c).loose
  hwaits := Pipeline.hwaits_of_owed_zero _ _ _ _ L lv 1 fun _ _ => rfl
  pre c := iprop(StableHlo.held (c : Thread nD τ) (Pipeline.ucRefs τ sig) (Gen.V4 m (outs4 m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr4 m c)
  hentry c := by
    have hs := Pipeline.arrays_of_unscopedBufs (p := 1) (pcfgs (F := F)) Gen.adm (pdats m) launch1.win launch1.arr_whole c
      ((pdats m 1 c).share_full fun _ => rfl) (Vr4 m c) fun _ => rfl
    rw [Pipeline.unscopedBufs_held] at hs
    exact entry_of c hs (by unfold Pipeline.prefHeld; rw [show (Finset.univ : Finset (Fin 0)) = ∅ from rfl, BI.bigSep_empty]) fun _ => Or.inl trivial
  hin c := by
    refine BIBase.Entails.trans ?_ (hin1 (Vr4 m) c)
    unfold Pipeline.ΦA
    iintro ⟨Hp, -, Hr⟩
    isplitl [Hr]; · iexact Hr
    iexact Hp
  hout c := by
    rw [Pipeline.ownSems0_none]
    refine BIBase.Entails.trans (hout1 (Vr4 m) c) ?_
    unfold Pipeline.ΦA
    iintro ⟨Hr, Hp⟩
    isplitl [Hp]; · iexact Hp
    isplitr; · iempintro
    iexact Hr
  hexit c := by
    have hj := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr4 m c) (Vr5 m c) ((pdats m 1 c).arrAt · cfg1.N) (hF1 m c) (hrest1 m c)
    rw [Pipeline.unscopedBufs_held] at hj
    exact exit_of c hj
set_option backward.isDefEq.respectTransparency.types false in
theorem run_main : θ_run defs (onTc (τ := τ) (main (F := F))) ⟨m, fun _ => 0, ρ⟩ (fun r => ∀ c : Dev nD,
      r.2.mem ((c.tc : Thread nD τ).loc main_v12) = (dat1 (Vr4 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (Gen.segs m 𝒱₀ L lv (E (F := F)) () (pdats m) (reg0 m) (reg1 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, sep_assoc.2⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c =>
      have mem_uc : ∀ (b : Ref sig .tc), ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v12 (by decide))).trans (V5_v12 m c),
       (h c _ (mem_uc main_arg0 (by decide))).trans (Gen.V5_main_arg0 m (outs m) c),
       (h c _ (mem_uc main_arg1 (by decide))).trans (Gen.V5_main_arg1 m (outs m) c),
       (h c _ (mem_uc main_arg2 (by decide))).trans (Gen.V5_main_arg2 m (outs m) c),
       (h c _ (mem_uc main_arg3 (by decide))).trans (Gen.V5_main_arg3 m (outs m) c),
       (h c _ (mem_uc main_arg4 (by decide))).trans (Gen.V5_main_arg4 m (outs m) c),
       (h c _ (mem_uc main_arg5 (by decide))).trans (Gen.V5_main_arg5 m (outs m) c)⟩)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)
end Cert.Kernel.Fr
end
-- ==== Proof.HostPrefix.lean ====
import proofs.«416823_j31155692765526_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.HostPrefix

open Cert.KernelIdeal Cert.KernelIdeal.Gen
open Idealize.ShloMosaic Idealize.ShloMosaic.TcCoe Idealize.SL.Sem Idealize.ShloMosaic.ValueIdx

local notation "gd" => gather_S32000x1024_S4096x1_S4096x1024_1_0_n_n_0_1_11024

/-- For t < 32000 the 32-bit word of t is not negative and at most 31999 in signed order, and clamping it gives t. -/
theorem rowWord (t : Fin 32000) :
    IntOp.cmpi .slt (BitVec.ofNat 32 t.val) 0#32 = 0#1
      ∧ IntOp.andi (IntOp.cmpi .sge (BitVec.ofNat 32 t.val) 0#32) (IntOp.cmpi .sle (BitVec.ofNat 32 t.val) 31999#32) = 1#1
      ∧ min (BitVec.ofNat 32 t.val).toInt.toNat 31999 = t.val := by
  have ht := t.isLt
  have hn : (BitVec.ofNat 32 t.val).toNat = t.val := by rw [BitVec.toNat_ofNat]; exact Nat.mod_eq_of_lt (by omega)
  have hs : (BitVec.ofNat 32 t.val).toNat < 2 ^ 31 := by omega
  refine ⟨eq_zero_of_ne_one ?_, ?_, ?_⟩
  · rw [StableHlo.Predicate.slt_iff_toNat hs (by decide)]; exact Nat.not_lt_zero _
  · rw [(StableHlo.Predicate.sge_iff_toNat hs (by decide)).2 (Nat.zero_le _),
      (StableHlo.Predicate.sle_iff_toNat hs (by decide)).2 (by rw [hn]; show t.val ≤ 31999; omega)]
    decide
  · rw [StableHlo.Predicate.toInt_ofNat_small _ (by omega), Int.toNat_natCast]; omega

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- Reducing by `and` from 1 over entries that are all 1 gives 1. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ fun i _ => hx i

/-- A whole-row gather reads, at the result's own column, the table row that the clamped start index names. -/
theorem gather_rows {α : Type} (T : S32000x1024.Idx → α) (idx : IVec S4096x1 32) (i : Fin 4096) (k : Fin 1024)
    (r : Fin 32000) (hr : min (idx (ix2 i (0 : Fin 1))).toInt.toNat 31999 = r.val) :
    Host.gather gd T idx (ix2 i k) = T (ix2 r k) := by
  unfold Host.gather
  congr 1
  funext a
  refine Fin.ext ?_
  match a with
  | ⟨0, _⟩ =>
    show (gd).start (ix2 i k) idx 0 + (gd).batchCoord (ix2 i k) 0 + (gd).offCoord (ix2 i k) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    exact (congrArg (fun z => min (idx z).toInt.toNat 31999) (funext fun b => Fin.ext (by
      match b with
      | ⟨0, _⟩ => rfl
      | ⟨1, _⟩ => rfl))).trans hr
  | ⟨1, _⟩ =>
    show (gd).start (ix2 i k) idx 1 + (gd).batchCoord (ix2 i k) 1 + (gd).offCoord (ix2 i k) 1 = k.val
    rw [GatherDims.batchCoord_eq_zero _ _ _ List.not_mem_nil]
    unfold GatherDims.start GatherDims.offCoord
    rw [dif_neg (by decide), dif_pos (by decide)]
    exact Nat.zero_add _

/-- Each token as a start index: a negative one is first raised by 32000. -/
def startCol (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 32000#32))) x)

/-- Whether a row's start index lies inside the table. -/
def rowOk (v : IVec S4096x1 32) : IVec S4096 1 :=
  Host.reduce IntOp.andi
    (andi (cmpi .sge v (broadcastInDim S4096x1 ![] bcast_S_S4096x1 (constantI S_ 32 0#32)))
      (cmpi .sle v (broadcastInDim S4096x1 ![0, 1] bcast_S1x1_S4096x1_0_1
        (broadcastInDim S1x1 ![1] bcast_S1_S1x1_1 (constantI S1 32 31999#32)))))
    (constantI S_ 1 1#1) reducesTo_S4096x1_S4096_d1 h_S_

/-- The gathered rows, with a not-a-number row wherever the start index lies outside the table. -/
def taken (T : FVec Ideal S32000x1024 .f32) (x : IVec S4096 32) : FVec Ideal S4096x1024 .f32 :=
  select (broadcastInDim S4096x1024 ![0] bcast_S4096_S4096x1024_0 (rowOk (startCol x)))
    (Host.gather gd T (startCol x))
    (broadcastInDim S4096x1024 ![] bcast_S_S4096x1024 (constant (F := Ideal) S_ .f32 0x7FC00000#32))

/-- When every token is a row number's word no row is masked, and row i reads table row tok i. -/
theorem taken_apply (T : FVec Ideal S32000x1024 .f32) (x : IVec S4096 32) (tok : Fin 4096 → Fin 32000)
    (hx : ∀ i, x (ix1 i) = BitVec.ofNat 32 (tok i).val) (i : Fin 4096) (k : Fin 1024) :
    taken T x (ix2 i k) = T (ix2 (tok i) k) := by
  have hs : ∀ (p : Fin 4096) (q : Fin 1), startCol x (ix2 p q) = BitVec.ofNat 32 (tok p).val := fun p q => by
    unfold startCol
    rw [broadcastInDim_apply _ _ _ (ix2 p q) (ix1 p) (fun a => by
      obtain rfl : a = 0 := Subsingleton.elim _ _
      rw [if_neg (by decide)]; rfl)]
    show Scalar.select (IntOp.cmpi .slt (x (ix1 p)) 0#32) (IntOp.addi (x (ix1 p)) 32000#32) (x (ix1 p)) = _
    rw [hx p, (rowWord _).1, select_zero]
  unfold taken rowOk
  rw [select_apply, broadcastInDim_apply _ _ _ (ix2 i k) (ix1 i) (fun a => by
      obtain rfl : a = 0 := Subsingleton.elim _ _
      rw [if_neg (by decide)]; rfl),
    reduce_andi_ones _ _ _ (fun j => by
      obtain ⟨p, q, rfl⟩ : ∃ (p : Fin 4096) (q : Fin 1), j = ix2 p q := ⟨j 0, j 1, eq_ix2 j⟩
      show IntOp.andi (IntOp.cmpi .sge (startCol x (ix2 p q)) 0#32) (IntOp.cmpi .sle (startCol x (ix2 p q)) 31999#32) = 1#1
      rw [hs, (rowWord _).2.1]), select_one]
  exact gather_rows T _ i k (tok i) (by rw [hs]; exact (rowWord _).2.2)

section Stretches

variable (W : Valuation τ sig (Elt Ideal))

theorem stretch0_v0 :
    StableHlo.after hostOps0 W main_v0 = shapeCast S4096 (W main_arg0 : S1x4096.Idx → BitVec 32) shapeCasts_S1x4096_S4096 := by
  after_results
  rfl

theorem stretch1_v1 :
    StableHlo.after hostOps0_1 W main_v1 = taken (W main_arg1) (W main_v0) := by
  after_results_simp
  rfl

/-- The transposes of two square matrices joined along the columns. -/
def sideBySide (A B : FVec Ideal S1024x1024 .f32) : FVec Ideal S1024x2048 .f32 :=
  concatenate S1024x2048 1
    [⟨S1024x1024, transpose S1024x1024 [1, 0] A transposes_S1024x1024_S1024x1024_1_0⟩,
      ⟨S1024x1024, transpose S1024x1024 [1, 0] B transposes_S1024x1024_S1024x1024_1_0⟩]
    concatenates_S1024x1024_S1024x1024_S1024x2048_d1

theorem stretch2_v5 :
    StableHlo.after hostOps0_2 W main_v5 = sideBySide (W main_arg3) (W main_arg4) := by
  after_results
  rfl

theorem stretch2_v8 :
    StableHlo.after hostOps0_2 W main_v8
      = fun i => sideBySide (W main_arg3) (W main_arg4) i - sideBySide (W main_arg3) (W main_arg4) i := by
  after_results
  rfl

theorem stretch2_v10 :
    StableHlo.after hostOps0_2 W main_v10
      = transpose S1024x1024 [1, 0] (W main_arg5 : S1024x1024.Idx → EReal) transposes_S1024x1024_S1024x1024_1_0 := by
  after_results
  rfl

end Stretches

theorem sideBySide_left (A B : FVec Ideal S1024x1024 .f32) (k j : Fin 1024) :
    sideBySide A B (ix2 k (⟨j.val, by have := j.isLt; omega⟩ : Fin 2048)) = A (ix2 j k) := by
  unfold sideBySide
  refine (concatenate_pair_apply_left (t := S1024x2048) (s₁ := S1024x1024) (s₂ := S1024x1024) 1 _ _
    concatenates_S1024x1024_S1024x1024_S1024x2048_d1 _ rfl (ix2 k j)
    (fun b => by match b with | ⟨0, _⟩ => rfl | ⟨1, _⟩ => rfl)).trans ?_
  exact transpose_ix2_apply A _ k j

theorem sideBySide_right (A B : FVec Ideal S1024x1024 .f32) (k j : Fin 1024) :
    sideBySide A B (ix2 k (⟨1024 + j.val, by have := j.isLt; omega⟩ : Fin 2048)) = B (ix2 j k) := by
  unfold sideBySide
  refine (concatenate_pair_apply_right (t := S1024x2048) (s₁ := S1024x1024) (s₂ := S1024x1024) 1 _ _
    concatenates_S1024x1024_S1024x1024_S1024x2048_d1 _ rfl rfl (ix2 k j)
    (fun b hb => by match b with | ⟨0, _⟩ => rfl | ⟨1, _⟩ => exact absurd rfl hb)
    (by show j.val + 1024 = 1024 + j.val; omega)).trans ?_
  exact transpose_ix2_apply B _ k j

section AtLaunch

variable (m : (ℓ : Loc nD τ sig) → Buf (Elt Ideal) ℓ) (c : Dev nD)

/-- What the first two host stretches do not write is unchanged before the third. -/
theorem V2_arg (r : Ref sig .tc) (h1 : r ∉ hostOps0_1_W) (h0 : r ∉ hostOps0_W) : V2 m c r = m ((c : Thread nD τ).loc r) :=
  (V2_of m c r h1).trans <| (V1_of m c r h0).trans rfl

/-- Flattening a single row of 4096 tokens keeps each token's row-major position. -/
theorem tokens_flat (i : Fin 4096) :
    (V1 m c main_v0 : S4096.Idx → BitVec 32) (ix1 i)
      = (m ((c : Thread nD τ).loc main_arg0) : S1x4096.Idx → BitVec 32) (ix2 (0 : Fin 1) i) := by
  refine (congrFun (stretch0_v0 (V0 m c)) _).trans ?_
  exact shapeCast_apply _ _ (ix1 i) (ix2 (0 : Fin 1) i) (by
    rw [Shape.rowMajor_val_two, Shape.rowMajor_val_one]
    show 0 * 4096 + i.val = i.val
    omega)

variable (tok : Fin 4096 → Fin 32000) (E : Fin 32000 → Fin 1024 → ℝ)
  (htok : ∀ i, (m ((c : Thread nD τ).loc main_arg0) : S1x4096.Idx → BitVec 32) (ix2 (0 : Fin 1) i) = BitVec.ofNat 32 (tok i).val)
  (hE : ∀ r k, (m ((c : Thread nD τ).loc main_arg1) : S32000x1024.Idx → EReal) (ix2 r k) = ((E r k : ℝ) : EReal))
  (Wq Wk : Fin 1024 → Fin 1024 → ℝ)
  (hq : ∀ j k, (m ((c : Thread nD τ).loc main_arg3) : S1024x1024.Idx → EReal) (ix2 j k) = ((Wq j k : ℝ) : EReal))
  (hk : ∀ j k, (m ((c : Thread nD τ).loc main_arg4) : S1024x1024.Idx → EReal) (ix2 j k) = ((Wk j k : ℝ) : EReal))
  (Wv : Fin 1024 → Fin 1024 → ℝ)
  (hv : ∀ j k, (m ((c : Thread nD τ).loc main_arg5) : S1024x1024.Idx → EReal) (ix2 j k) = ((Wv j k : ℝ) : EReal))

include htok hE in
theorem h0_apply (i : Fin 4096) (k : Fin 1024) :
    (V3 m c main_v1 : S4096x1024.Idx → EReal) (ix2 i k) = ((E (tok i) k : ℝ) : EReal) := by
  rw [V3_of m c main_v1 (by decide)]
  refine (congrFun (stretch1_v1 (V1 m c)) _).trans ?_
  rw [taken_apply _ _ tok (fun p => (tokens_flat m c p).trans (htok p)),
    V1_of m c main_arg1 (by decide)]
  exact hE _ _

include hq in
theorem wqk_hi_left (k j : Fin 1024) :
    (V3 m c main_v5 : S1024x2048.Idx → EReal) (ix2 k (⟨j.val, by have := j.isLt; omega⟩ : Fin 2048)) = ((Wq j k : ℝ) : EReal) := by
  refine (congrFun (stretch2_v5 (V2 m c)) _).trans ?_
  rw [sideBySide_left, V2_arg m c main_arg3 (by decide) (by decide)]
  exact hq j k

include hk in
theorem wqk_hi_right (k j : Fin 1024) :
    (V3 m c main_v5 : S1024x2048.Idx → EReal) (ix2 k (⟨1024 + j.val, by have := j.isLt; omega⟩ : Fin 2048)) = ((Wk j k : ℝ) : EReal) := by
  refine (congrFun (stretch2_v5 (V2 m c)) _).trans ?_
  rw [sideBySide_right, V2_arg m c main_arg4 (by decide) (by decide)]
  exact hk j k

include hq hk in
/-- Each entry is an entry of Wq or of Wk, hence real, and a real minus itself is 0. -/
theorem wqk_lo_zero (i : S1024x2048.Idx) :
    (V3 m c main_v8 : S1024x2048.Idx → EReal) i = (0 : EReal) := by
  obtain ⟨r, hr⟩ : ∃ r : ℝ, sideBySide (V2 m c main_arg3) (V2 m c main_arg4) i = (r : EReal) := by
    rw [← stretch2_v5 (V2 m c)]
    obtain ⟨k, j, rfl⟩ : ∃ (k : Fin 1024) (j : Fin 2048), i = ix2 k j := ⟨i 0, i 1, eq_ix2 i⟩
    by_cases hj : j.val < 1024
    · exact ⟨_, wqk_hi_left m c Wq hq k ⟨j.val, hj⟩⟩
    · have hj2 : j.val - 1024 < 1024 := by have := j.isLt; omega
      rw [show j = (⟨1024 + (⟨j.val - 1024, hj2⟩ : Fin 1024).val, by have := j.isLt; omega⟩ : Fin 2048) from
        Fin.ext (by show j.val = 1024 + (j.val - 1024); omega)]
      exact ⟨_, wqk_hi_right m c Wk hk k ⟨j.val - 1024, hj2⟩⟩
  refine (congrFun (stretch2_v8 (V2 m c)) i).trans ?_
  rw [hr, ← EReal.coe_sub, sub_self, EReal.coe_zero]

include hv in
theorem wv_apply (k j : Fin 1024) :
    (V3 m c main_v10 : S1024x1024.Idx → EReal) (ix2 k j) = ((Wv j k : ℝ) : EReal) := by
  refine (congrFun (stretch2_v10 (V2 m c)) _).trans ?_
  rw [transpose_ix2_apply, V2_arg m c main_arg5 (by decide) (by decide)]
  exact hv j k

theorem normw_eq : V3 m c main_arg2 = m ((c : Thread nD τ).loc main_arg2) :=
  (V3_of m c main_arg2 (by decide)).trans <| V2_arg m c main_arg2 (by decide) (by decide)

end AtLaunch

end Cert.KernelIdeal.HostPrefix

end
-- ==== Proof.Spec.lean ====
import Mathlib.Analysis.SpecialFunctions.Exp
import Mathlib.Analysis.SpecialFunctions.Sqrt
import Mathlib.Algebra.BigOperators.Fin
import Mathlib.Data.Finset.Lattice.Fold

noncomputable section

namespace Cert.Spec

open Finset

def eps : ℝ := (2 : ℝ)⁻¹ ^ 23

/-- Row `i`: the table row of token `i` over the root of its mean square plus `eps`, times the column weight. -/
def normed (E : Fin 32000 → Fin 1024 → ℝ) (tok : Fin 4096 → Fin 32000) (w : Fin 1024 → ℝ) :
    Fin 4096 → Fin 1024 → ℝ :=
  fun i k => E (tok i) k * (Real.sqrt ((∑ k', E (tok i) k' * E (tok i) k') * (1 / 1024) + eps))⁻¹ * w k

def proj (X : Fin 4096 → Fin 1024 → ℝ) (W : Fin 1024 → Fin 1024 → ℝ) : Fin 4096 → Fin 1024 → ℝ :=
  fun i j => ∑ k, X i k * W j k

def scores (Q K : Fin 4096 → Fin 1024 → ℝ) : Fin 4096 → Fin 4096 → ℝ :=
  fun i j => ∑ d, Q i d * K j d

def rowMax {n : ℕ} [NeZero n] (f : Fin n → ℝ) : ℝ := Finset.univ.sup' Finset.univ_nonempty f

def gate (x : ℝ) : ℝ := x * (1 + Real.exp (-x))⁻¹

/-- The average of `x` under the weights `exp (s j - max s)` over their sum, each weight normalised first. -/
def direct (s x : Fin 4096 → ℝ) : ℝ :=
  ∑ j, Real.exp (s j - rowMax s) * (1 / ∑ j', Real.exp (s j' - rowMax s)) * x j

def key (b : Fin 4) (r : Fin 1024) : Fin 4096 := ⟨1024 * b.val + r.val, by have := b.isLt; have := r.isLt; omega⟩

structure Carry where
  m : ℝ
  l : ℝ
  a : ℝ

def first (s x : Fin 1024 → ℝ) : Carry :=
  ⟨rowMax s, ∑ r, Real.exp (s r - rowMax s), ∑ r, Real.exp (s r - rowMax s) * x r⟩

def next (c : Carry) (s x : Fin 1024 → ℝ) : Carry :=
  let m' := max c.m (rowMax s)
  ⟨m', Real.exp (c.m - m') * c.l + ∑ r, Real.exp (s r - m'), Real.exp (c.m - m') * c.a + ∑ r, Real.exp (s r - m') * x r⟩

/-- The running maximum, sum of exponentials and weighted sum after the key blocks `0 … n`. -/
def carry (s x : Fin 4096 → ℝ) : ℕ → Carry
  | 0 => first (fun r => s (key 0 r)) (fun r => x (key 0 r))
  | n + 1 => next (carry s x n) (fun r => s (key ⟨(n + 1) % 4, Nat.mod_lt _ (by decide)⟩ r))
      (fun r => x (key ⟨(n + 1) % 4, Nat.mod_lt _ (by decide)⟩ r))

def blockwise (s x : Fin 4096 → ℝ) : ℝ := (carry s x 3).a * (1 / (carry s x 3).l)

def blk (i : ℕ) : Fin 4 := ⟨i % 4, Nat.mod_lt _ (by decide)⟩

theorem blk_val (i : Fin 4) : blk i.val = i := Fin.ext (Nat.mod_eq_of_lt i.isLt)

theorem carry_zero (s x : Fin 4096 → ℝ) :
    carry s x 0 = first (fun r => s (key (blk 0) r)) (fun r => x (key (blk 0) r)) := rfl

theorem carry_succ (s x : Fin 4096 → ℝ) (n : ℕ) :
    carry s x (n + 1) = next (carry s x n) (fun r => s (key (blk (n + 1)) r))
      (fun r => x (key (blk (n + 1)) r)) := rfl

/-- Rescaling by `exp (old - new)` turns `exp (s - old)` into `exp (s - new)`, in both running sums alike. -/
theorem carry_la (s x : Fin 4096 → ℝ) (n : ℕ) :
    (carry s x n).l = ∑ i ∈ range (n + 1), ∑ r, Real.exp (s (key (blk i) r) - (carry s x n).m)
    ∧ (carry s x n).a = ∑ i ∈ range (n + 1), ∑ r, Real.exp (s (key (blk i) r) - (carry s x n).m) * x (key (blk i) r) := by
  induction n with
  | zero => simp only [carry_zero, first, zero_add, sum_range_one, and_self]
  | succ n ih =>
    simp only [carry_succ, next, sum_range_succ _ (n + 1)]
    rw [ih.1, ih.2]
    simp only [mul_sum, ← mul_assoc, ← Real.exp_add, sub_add_sub_cancel', and_self]

theorem carry_l (s x : Fin 4096 → ℝ) (n : ℕ) :
    (carry s x n).l = ∑ i ∈ range (n + 1), ∑ r, Real.exp (s (key (blk i) r) - (carry s x n).m) := (carry_la s x n).1

theorem blockMax_le_rowMax (s : Fin 4096 → ℝ) (b : Fin 4) : rowMax (fun r => s (key b r)) ≤ rowMax s :=
  sup'_le _ _ fun r _ => le_sup' s (mem_univ (key b r))

theorem carry_m_le (s x : Fin 4096 → ℝ) : ∀ n, (carry s x n).m ≤ rowMax s
  | 0 => blockMax_le_rowMax s _
  | n + 1 => max_le (carry_m_le s x n) (blockMax_le_rowMax s _)

theorem blockMax_le_carry_m (s x : Fin 4096 → ℝ) (i : ℕ) : ∀ n, i ≤ n → rowMax (fun r => s (key (blk i) r)) ≤ (carry s x n).m
  | 0, h => by obtain rfl := Nat.le_zero.mp h; exact le_rfl
  | n + 1, h => (Nat.lt_or_ge i (n + 1)).elim
      (fun h' => (blockMax_le_carry_m s x i n (Nat.le_of_lt_succ h')).trans (le_max_left _ _))
      (fun h' => by obtain rfl := le_antisymm h h'; exact le_max_right _ _)

/-- Key `j` is key `j % 1024` of block `j / 1024`: blocks and offsets pair off with the keys. -/
theorem key_bijective : Function.Bijective (fun p : Fin 4 × Fin 1024 => key p.1 p.2) :=
  (show (fun p : Fin 4 × Fin 1024 => key p.1 p.2) = finProdFinEquiv from funext fun p => Fin.ext (Nat.add_comm _ _)) ▸
    finProdFinEquiv.bijective

theorem carry_m_three (s x : Fin 4096 → ℝ) : (carry s x 3).m = rowMax s := by
  refine le_antisymm (carry_m_le s x 3) (sup'_le _ _ fun j _ => ?_)
  obtain ⟨⟨b, r⟩, rfl⟩ := key_bijective.2 j
  exact (le_sup' (fun r => s (key b r)) (mem_univ r)).trans
    (blk_val b ▸ blockMax_le_carry_m s x b.val 3 (Nat.le_of_lt_succ b.isLt))

theorem sum_blocks (f : Fin 4096 → ℝ) :
    ∑ i ∈ range 4, ∑ r : Fin 1024, f (key (blk i) r) = ∑ j, f j := by
  rw [Finset.sum_range]
  simp only [blk_val]
  rw [← Fintype.sum_prod_type' (fun b r => f (key b r))]
  exact Fintype.sum_bijective _ key_bijective _ _ (fun _ => rfl)

/-- Both are `∑ exp (s j - max s) * x j` over `∑ exp (s j - max s)`. -/
theorem blockwise_eq_direct (s x : Fin 4096 → ℝ) : blockwise s x = direct s x := by
  unfold blockwise direct
  rw [(carry_la s x 3).2, carry_l, carry_m_three, sum_blocks (fun j => Real.exp (s j - rowMax s) * x j),
    sum_blocks (fun j => Real.exp (s j - rowMax s)), sum_mul]
  exact sum_congr rfl fun j _ => by ring

def outDirect (E : Fin 32000 → Fin 1024 → ℝ) (tok : Fin 4096 → Fin 32000) (w : Fin 1024 → ℝ)
    (Wq Wk Wv : Fin 1024 → Fin 1024 → ℝ) : Fin 4096 → Fin 1024 → ℝ :=
  fun i d => gate (direct (scores (proj (normed E tok w) Wq) (proj (normed E tok w) Wk) i)
    (fun j => proj (normed E tok w) Wv j d))

def outBlockwise (E : Fin 32000 → Fin 1024 → ℝ) (tok : Fin 4096 → Fin 32000) (w : Fin 1024 → ℝ)
    (Wq Wk Wv : Fin 1024 → Fin 1024 → ℝ) : Fin 4096 → Fin 1024 → ℝ :=
  fun i d => gate (blockwise (scores (proj (normed E tok w) Wq) (proj (normed E tok w) Wk) i)
    (fun j => proj (normed E tok w) Wv j d))

theorem outBlockwise_eq_outDirect (E : Fin 32000 → Fin 1024 → ℝ) (tok : Fin 4096 → Fin 32000) (w : Fin 1024 → ℝ)
    (Wq Wk Wv : Fin 1024 → Fin 1024 → ℝ) : outBlockwise E tok w Wq Wk Wv = outDirect E tok w Wq Wk Wv := by
  funext i d; simp only [outBlockwise, outDirect, blockwise_eq_direct]

end Cert.Spec

end
-- ==== Proof.PayR0.lean ====
import proofs.«416823_j31155692765526_3_alg».proof.Proof.Gen.KernelIdeal.Skeleton
import proofs.«416823_j31155692765526_3_alg».proof.Proof.Spec
import Idealize.ShloMosaic.Lib.ValueLayout
import Idealize.ShloMosaic.Lib.StackMember

noncomputable section

namespace Cert.KernelIdeal.PayR0

open Idealize.ShloMosaic Idealize.ShloMosaic.ValueIdx Cert.KernelIdeal Cert.KernelIdeal.Gen
open scoped BigOperators

def normedRow (h : Fin 1024 → ℝ) (w : Fin 1024 → ℝ) (k : Fin 1024) : ℝ :=
  h k * (Real.sqrt ((∑ k', h k' * h k') * (1 / 1024) + Cert.Spec.eps))⁻¹ * w k

-- A vector and the column made of it share their row-major positions.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

-- A column spread along its unit axis reads the column at the same row.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row {m n : ℕ} (h : (⟨2, ![m, n]⟩ : Shape).Reduces [1] ⟨1, ![m]⟩) (r : Fin m) (k : Fin n) :
    h.lift (ix1 r) k = ix2 r k :=
  funext fun c => by match c with | ⟨0, _⟩ => rfl | ⟨1, _⟩ => rfl

-- The sum along the second axis, read at row r, is the sum of that row's entries.
theorem rowSum_apply {m n : ℕ} (v : FVec Ideal ⟨2, ![m, n]⟩ .f32) (h : (⟨2, ![m, n]⟩ : Shape).Reduces [1] ⟨1, ![m]⟩)
    (hφ : FKind.Formats .f32) (hacc : (0x00000000#32 : BitVec 32) = 0x00000000#32) (r : Fin m) :
    multiReduction (F := Ideal) .add [1] ⟨1, ![m]⟩ v 0x00000000#32 h hφ hacc (ix1 r) = ∑ k : Fin n, v (ix2 r k) :=
  (Ideal.multiReduction_add_single v _ h hφ hacc (ix1 r)).trans
    (Finset.sum_congr rfl fun k _ => congrArg v (lift_row h r k))

-- Coercion is additive, so it commutes with finite sums.
theorem coe_sum {ι : Type*} (s : Finset ι) (f : ι → ℝ) : (∑ i ∈ s, ((f i : ℝ) : EReal)) = ((∑ i ∈ s, f i : ℝ) : EReal) :=
  (map_sum (⟨⟨Real.toEReal, EReal.coe_zero⟩, EReal.coe_add⟩ : ℝ →+ EReal) f s).symm

-- A product of an m×k by a k×n matrix into a zero accumulator, read at (r, j).
theorem matmul_plain_apply {m k n : ℕ} (D : DotDims ⟨2, ![m, k]⟩ ⟨2, ![k, n]⟩ ⟨2, ![m, n]⟩) (hD : D = .plain m k n)
    (a : FVec Ideal ⟨2, ![m, k]⟩ .bf16) (b : FVec Ideal ⟨2, ![k, n]⟩ .bf16) (r : Fin m) (j : Fin n) :
    matmul (F := Ideal) D none a b (constant (F := Ideal) ⟨2, ![m, n]⟩ .f32 0x00000000#32) (ix2 r j)
      = ∑ c : Fin k, a (ix2 r c) * b (ix2 c j) := by
  subst hD
  rw [matmul_zero_eq_dotGeneral]
  exact StackMember.dotGeneral_plain_apply none a b r j

theorem ofBits_1024 : Ideal.ofBits .f32 0x44800000#32 = ((1024 : ℝ) : EReal) := by
  simp [Ideal.ofBits, Ideal.ieee]
  rw [← EReal.coe_mul]
  norm_num

theorem ofBits_eps : Ideal.ofBits .f32 0x34000000#32 = ((Cert.Spec.eps : ℝ) : EReal) := by
  simp [Ideal.ofBits, Ideal.ieee, Cert.Spec.eps]
  rw [← EReal.coe_mul]
  norm_num

theorem rsqrt_apply {s : Shape} {φ : FTy} (a : FVec Ideal s φ) (i : s.Idx) : rsqrt a i = Ideal.rsqrt (a i) := rfl

-- The mean square plus 2⁻²³ is positive, so its reciprocal root is the real one.
theorem rsqrt_meanSq (h : Fin 1024 → ℝ) :
    Ideal.rsqrt (((∑ k', h k' * h k') * (1 / 1024) + Cert.Spec.eps : ℝ) : EReal)
      = (((Real.sqrt ((∑ k', h k' * h k') * (1 / 1024) + Cert.Spec.eps))⁻¹ : ℝ) : EReal) := by
  have hp : 0 < (∑ k', h k' * h k') * (1 / 1024) + Cert.Spec.eps := by
    have h1 : 0 ≤ ∑ k', h k' * h k' := Finset.sum_nonneg fun i _ => mul_self_nonneg (h i)
    have h2 : (0 : ℝ) < Cert.Spec.eps := by unfold Cert.Spec.eps; positivity
    have h3 := mul_nonneg h1 (by norm_num : (0 : ℝ) ≤ 1 / 1024)
    linarith
  rw [Ideal.rsqrt_coe, if_neg (not_lt.2 hp.le), if_neg hp.ne']

variable (x0 : Vec Ideal S512x1024 .f32) (x1 : Vec Ideal S1024 .f32) (x2 x3 : Vec Ideal S1024x2048 .bf16)
  (x4 : Vec Ideal S1024x1024 .bf16)
  (H : Fin 512 → Fin 1024 → ℝ) (w : Fin 1024 → ℝ) (Whi : Fin 1024 → Fin 2048 → ℝ) (Wvt : Fin 1024 → Fin 1024 → ℝ)
  (hx0 : ∀ r k, x0 (ix2 r k) = ((H r k : ℝ) : EReal)) (hx1 : ∀ k, x1 (ix1 k) = ((w k : ℝ) : EReal))
  (hx2 : ∀ k j, x2 (ix2 k j) = ((Whi k j : ℝ) : EReal)) (hx3 : ∀ k j, x3 (ix2 k j) = (0 : EReal))
  (hx4 : ∀ k j, x4 (ix2 k j) = ((Wvt k j : ℝ) : EReal))
include hx0 hx1

theorem pay2_apply (r : Fin 512) (k : Fin 1024) :
    Gen.k0_pay2 (F := Ideal) x0 x1 (ix2 r k) = ((normedRow (H r) w k : ℝ) : EReal) := by
  unfold Gen.k0_pay2
  simp only [mulf_apply]
  rw [shapeCast_self, broadcastTo_a1_ab_apply, broadcastTo_1b_ab_apply, shapeCast_a_1a_apply, hx0, hx1,
    rsqrt_apply, addf_apply, divf_apply, broadcast_apply, broadcast_apply, shapeCast_a_a1_apply, rowSum_apply]
  simp only [mulf_apply, hx0, Ideal.ofBits_def, ofBits_1024, ofBits_eps, ← EReal.coe_mul, coe_sum]
  rw [Ideal.div_coe (by norm_num : (1024 : ℝ) ≠ 0), ← EReal.coe_mul, ← EReal.coe_add, rsqrt_meanSq,
    ← EReal.coe_mul, ← EReal.coe_mul]
  rfl

section
include hx2 hx3

-- Of the three products added, one has a zero matrix and one the zero remainder of the scaled row as a factor.
theorem pay4_apply (r : Fin 512) (j : Fin 2048) :
    Gen.k0_pay4 (F := Ideal) x0 x1 x2 x3 x2 (ix2 r j) = ((∑ k, normedRow (H r) w k * Whi k j : ℝ) : EReal) := by
  unfold Gen.k0_pay4
  simp only [addf_apply, shapeCast_self, matmul_plain_apply dot_S512x1024_S1024x2048_S512x2048_1_0_0_1_n_n rfl,
    Gen.k0_pay3, truncf_apply, subf_apply, pay2_apply x0 x1 H w hx0 hx1, hx2, hx3]
  simp only [mul_zero, Finset.sum_const_zero, add_zero, ← EReal.coe_sub, sub_self, EReal.coe_zero, zero_mul,
    ← EReal.coe_mul, coe_sum]

theorem pay5_apply (r : Fin 512) (j : Fin 1024) :
    Gen.k0_pay5 (F := Ideal) x0 x1 x2 x3 x2 (ix2 r j)
      = ((∑ k, normedRow (H r) w k * Whi k ⟨j.val, Nat.lt_of_lt_of_le j.isLt (by decide)⟩ : ℝ) : EReal) :=
  (slice2_axis1_apply (n0 := 512) (n1 := 2048) (m := 1024) 0 (Gen.k0_pay4 (F := Ideal) x0 x1 x2 x3 x2)
    slices_S512x2048_o0_0_S512x1024 r j ⟨j.val, Nat.lt_of_lt_of_le j.isLt (by decide)⟩ (Nat.zero_add _).symm).trans
    (pay4_apply x0 x1 x2 x3 H w Whi hx0 hx1 hx2 hx3 r _)

theorem pay6_apply (r : Fin 512) (j : Fin 1024) :
    Gen.k0_pay6 (F := Ideal) x0 x1 x2 x3 x2 (ix2 r j)
      = ((∑ k, normedRow (H r) w k * Whi k ⟨1024 + j.val, Nat.add_lt_add_left j.isLt 1024⟩ : ℝ) : EReal) :=
  (slice2_axis1_apply (n0 := 512) (n1 := 2048) (m := 1024) 1024 (Gen.k0_pay4 (F := Ideal) x0 x1 x2 x3 x2)
    slices_S512x2048_o0_1024_S512x1024 r j ⟨1024 + j.val, Nat.add_lt_add_left j.isLt 1024⟩ rfl).trans
    (pay4_apply x0 x1 x2 x3 H w Whi hx0 hx1 hx2 hx3 r _)

theorem pay7_apply (r : Fin 512) (j : Fin 1024) :
    Gen.k0_pay7 (F := Ideal) x0 x1 x2 x3 x2 (ix2 r j)
      = ((∑ k, normedRow (H r) w k * Whi k ⟨j.val, Nat.lt_of_lt_of_le j.isLt (by decide)⟩ : ℝ) : EReal) :=
  pay5_apply x0 x1 x2 x3 H w Whi hx0 hx1 hx2 hx3 r j

theorem pay9_apply (r : Fin 512) (j : Fin 1024) :
    Gen.k0_pay9 (F := Ideal) x0 x1 x2 x3 x2 (ix2 r j)
      = ((∑ k, normedRow (H r) w k * Whi k ⟨1024 + j.val, Nat.add_lt_add_left j.isLt 1024⟩ : ℝ) : EReal) :=
  pay6_apply x0 x1 x2 x3 H w Whi hx0 hx1 hx2 hx3 r j

-- The remainder is a real number minus itself.
theorem pay8_apply (r : Fin 512) (j : Fin 1024) : Gen.k0_pay8 (F := Ideal) x0 x1 x2 x3 x2 (ix2 r j) = (0 : EReal) := by
  unfold Gen.k0_pay8
  rw [truncf_apply, subf_apply, pay5_apply x0 x1 x2 x3 H w Whi hx0 hx1 hx2 hx3 r j, ← EReal.coe_sub, sub_self, EReal.coe_zero]

theorem pay10_apply (r : Fin 512) (j : Fin 1024) : Gen.k0_pay10 (F := Ideal) x0 x1 x2 x3 x2 (ix2 r j) = (0 : EReal) := by
  unfold Gen.k0_pay10
  rw [truncf_apply, subf_apply, pay6_apply x0 x1 x2 x3 H w Whi hx0 hx1 hx2 hx3 r j, ← EReal.coe_sub, sub_self, EReal.coe_zero]

end

include hx4 in
theorem pay1_apply (r : Fin 512) (j : Fin 1024) :
    Gen.k0_pay1 (F := Ideal) (Gen.k0_pay3 (F := Ideal) x0 x1) x4 (ix2 r j)
      = ((∑ k, normedRow (H r) w k * Wvt k j : ℝ) : EReal) := by
  unfold Gen.k0_pay1
  rw [truncf_apply, shapeCast_self, matmul_plain_apply dot_S512x1024_S1024x1024_S512x1024_1_0_0_1_n_n rfl]
  simp only [Gen.k0_pay3, truncf_apply, pay2_apply x0 x1 H w hx0 hx1, hx4, ← EReal.coe_mul, coe_sum]

end Cert.KernelIdeal.PayR0

end
-- ==== Proof.R0Arr.lean ====
import proofs.«416823_j31155692765526_3_alg».proof.Proof.FrKernelIdeal.R0
import proofs.«416823_j31155692765526_3_alg».proof.Proof.PayR0
import proofs.«416823_j31155692765526_3_alg».proof.Proof.Spec
import Idealize.ShloMosaic.Lib.Pipeline.Value
import Idealize.ShloMosaic.Lib.ValueIdx

noncomputable section

namespace Cert.KernelIdeal.R0Arr

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The transposed query and key weights side by side: column `j < 1024` is row `j` of `Wq`, column `1024 + j` row `j` of `Wk`. -/
def wqkT (Wq Wk : Fin 1024 → Fin 1024 → ℝ) (k : Fin 1024) (j : Fin 2048) : ℝ :=
  if h : j.val < 1024 then Wq ⟨j.val, h⟩ k else Wk ⟨j.val - 1024, by have := j.isLt; omega⟩ k

theorem wqkT_query (Wq Wk : Fin 1024 → Fin 1024 → ℝ) (k j : Fin 1024) (h : j.val < 2048) :
    wqkT Wq Wk k ⟨j.val, h⟩ = Wq j k := dif_pos j.isLt

theorem wqkT_key (Wq Wk : Fin 1024 → Fin 1024 → ℝ) (k j : Fin 1024) (h : 1024 + j.val < 2048) :
    wqkT Wq Wk k ⟨1024 + j.val, h⟩ = Wk j k :=
  (dif_neg (by show ¬ 1024 + j.val < 1024; omega)).trans
    (congrArg (Wk · k) (Fin.ext (by show 1024 + j.val - 1024 = j.val; omega)))

theorem idx_in : ∀ t : Fin cfg0.N, (win0_0.index t (0 : Fin 2) = t.val ∧ win0_0.index t (1 : Fin 2) = 0)
    ∧ (∀ a, win0_1.index t a = 0) ∧ (∀ a, win0_2.index t a = 0) ∧ (∀ a, win0_3.index t a = 0) ∧ (∀ a, win0_4.index t a = 0) :=
  (by decide +kernel : ∀ t : Fin grid0.N, _)

theorem idx_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row `r` of grid point `t`'s block is row `512 t + r` of the array. -/
def rowAt (t : Fin cfg0.N) (r : Fin 512) : Fin 4096 :=
  ⟨512 * t.val + r.val, by
    have ht : t.val < 8 := Nat.lt_of_lt_of_eq t.isLt (show cfg0.N = 8 from N_0)
    have := r.isLt; omega⟩

/-- An entry of a block of 512 rows at block index `(t, 0)` sits at row `512 t + y 0`, column `y 1` of the array. -/
theorem at_rows {idx : Fin 2 → ℕ} {t : Fin cfg0.N} (h : idx 0 = t.val ∧ idx 1 = 0) (y : S512x1024.Idx) (z : S4096x1024.Idx)
    (hz : ∀ a, (z a).val = idx a * S512x1024.size a + 1 * (y a).val) : z = ix2 (rowAt t (y 0)) (y 1) := by
  obtain ⟨h0, h1⟩ := h
  have e0 : (z 0).val = idx 0 * 512 + 1 * (y 0).val := hz 0
  have e1 : (z 1).val = idx 1 * 1024 + 1 * (y 1).val := hz 1
  exact Shape.idx_ext₂ (by show (z 0).val = 512 * t.val + (y 0).val; omega) (by show (z 1).val = (y 1).val; omega)

/-- At block index zero an entry of the block has its own index in the array. -/
theorem at_zero {s : Shape} {idx : Fin s.rank → ℕ} (h : ∀ a, idx a = 0) (y z : s.Idx)
    (hz : ∀ a, (z a).val = idx a * s.size a + 1 * (y a).val) : z = y :=
  funext fun a => Fin.ext (by rw [hz a, h a]; omega)

/-- The eight blocks of 512 rows tile the 4096 rows. -/
theorem rows_surj (i : S4096x1024.Idx) : ∃ (t : Fin cfg0.N) (y : S512x1024.Idx), ix2 (rowAt t (y 0)) (y 1) = i := by
  have h0 : (i 0).val < 4096 := (i 0).isLt
  refine ⟨⟨(i 0).val / 512, Nat.lt_of_lt_of_eq (by omega) (show cfg0.N = 8 from N_0).symm⟩,
    ix2 ⟨(i 0).val % 512, Nat.mod_lt _ (by decide)⟩ (i 1), ?_⟩
  exact Shape.idx_ext₂ (by show 512 * ((i 0).val / 512) + (i 0).val % 512 = (i 0).val; omega) rfl

/-- A block that holds, entry by entry, the rows of `G` it sits at is `G` read through where its entries sit. -/
theorem tile_rows (f : Vec Ideal S512x1024 .bf16) (G : Vec Ideal S4096x1024 .bf16) (t : Fin cfg0.N)
    (emb : S512x1024.Idx → S4096x1024.Idx) (hat : ∀ y, emb y = ix2 (rowAt t (y 0)) (y 1))
    (h : ∀ r j, f (ix2 r j) = G (ix2 (rowAt t r) j)) : f = fun y => G (emb y) :=
  funext fun y => by rw [hat, eq_ix2 y]; exact h _ _

theorem at5 (t : Fin cfg0.N) (y : S512x1024.Idx) : ((cfg0.win 5).blk t).view.emb y = ix2 (rowAt t (y 0)) (y 1) :=
  at_rows (idx_out t).1 y _ fun _ => rfl
theorem at6 (t : Fin cfg0.N) (y : S512x1024.Idx) : ((cfg0.win 6).blk t).view.emb y = ix2 (rowAt t (y 0)) (y 1) :=
  at_rows (idx_out t).2.1 y _ fun _ => rfl
theorem at7 (t : Fin cfg0.N) (y : S512x1024.Idx) : ((cfg0.win 7).blk t).view.emb y = ix2 (rowAt t (y 0)) (y 1) :=
  at_rows (idx_out t).2.2.1 y _ fun _ => rfl
theorem at8 (t : Fin cfg0.N) (y : S512x1024.Idx) : ((cfg0.win 8).blk t).view.emb y = ix2 (rowAt t (y 0)) (y 1) :=
  at_rows (idx_out t).2.2.2.1 y _ fun _ => rfl
theorem at9 (t : Fin cfg0.N) (y : S512x1024.Idx) : ((cfg0.win 9).blk t).view.emb y = ix2 (rowAt t (y 0)) (y 1) :=
  at_rows (idx_out t).2.2.2.2 y _ fun _ => rfl

theorem hz2 : (![0, 0] : Fin 2 → Nat) = fun _ => 0 := funext fun a => by fin_cases a <;> rfl
theorem hz1 : (![0] : Fin 1 → Nat) = fun _ => 0 := funext fun a => by fin_cases a; rfl

/-- A whole-block rectangle at offset zero is the identity on blocks, so each output block is its payload of the input blocks. -/
theorem outs (x0 : Vec Ideal S512x1024 .f32) (x1 : Vec Ideal S1024 .f32) (x2 x3 : Vec Ideal S1024x2048 .bf16) (x4 : Vec Ideal S1024x1024 .bf16) :
    Fr.out0_5 x0 x1 x2 x3 = Gen.k0_pay7 x0 x1 x2 x3 x2 ∧ Fr.out0_6 x0 x1 x2 x3 = Gen.k0_pay8 x0 x1 x2 x3 x2
    ∧ Fr.out0_7 x0 x1 x2 x3 = Gen.k0_pay9 x0 x1 x2 x3 x2 ∧ Fr.out0_8 x0 x1 x2 x3 = Gen.k0_pay10 x0 x1 x2 x3 x2
    ∧ Fr.out0_9 x0 x1 x4 = Gen.k0_pay1 (Gen.k0_pay3 x0 x1) x4 := by
  simp only [Fr.out0_5, Fr.out0_6, Fr.out0_7, Fr.out0_8, Fr.out0_9, View.canon_unit_zero (S := S512x1024) hz2,
    View.ld_unit_zero (S := S512x1024) hz2, View.ld_unit_zero (S := S1024) hz1,
    View.ld_unit_zero (S := S1024x2048) hz2, View.ld_unit_zero (S := S1024x1024) hz2, and_self]

section
variable (c : Dev nD) (E : Fin 32000 → Fin 1024 → ℝ) (tok : Fin 4096 → Fin 32000) (w : Fin 1024 → ℝ) (Wq Wk Wv : Fin 1024 → Fin 1024 → ℝ)
  (hH : ∀ (i : Fin 4096) (k : Fin 1024), (V c main_v1 : Vec Ideal S4096x1024 .f32) (ix2 i k) = ((E (tok i) k : ℝ) : EReal))
  (hw : ∀ k : Fin 1024, (V c main_arg2 : Vec Ideal S1024 .f32) (ix1 k) = ((w k : ℝ) : EReal))
  (hWq : ∀ k j : Fin 1024, (V c main_v5 : Vec Ideal S1024x2048 .bf16) (ix2 k (⟨j.val, Nat.lt_of_lt_of_le j.isLt (by decide)⟩ : Fin 2048)) = ((Wq j k : ℝ) : EReal))
  (hWk : ∀ k j : Fin 1024, (V c main_v5 : Vec Ideal S1024x2048 .bf16) (ix2 k (⟨1024 + j.val, Nat.add_lt_add_left j.isLt 1024⟩ : Fin 2048)) = ((Wk j k : ℝ) : EReal))
  (hlo : ∀ (k : Fin 1024) (j : Fin 2048), (V c main_v8 : Vec Ideal S1024x2048 .bf16) (ix2 k j) = (0 : EReal))
  (hWv : ∀ k j : Fin 1024, (V c main_v10 : Vec Ideal S1024x1024 .bf16) (ix2 k j) = ((Wv j k : ℝ) : EReal))

/-- If every point's block of an output array is the matching block of `G`, and the blocks' entries (at `pl`) reach every index, the array ends equal to `G`. -/
theorem final_of (n : Fin cfg0.W) (G : Buf (Elt Ideal) ((cfg0.win n).arr.view.loc (c.tc : Thread nD τ)))
    (hfl : ∀ t, (cfg0.win n).flush t = true)
    (pl : (t : Fin cfg0.N) → ((cfg0.win n).xblock (cfg0.grid.coords t)).Idx → ((cfg0.win n).arr.view.loc (c.tc : Thread nD τ)).2.ty.Idx)
    (hat : ∀ t y, ((cfg0.win n).blk t).view.emb y = pl t y) (hsurj : ∀ i, ∃ t y, pl t y = i)
    (hG : ∀ t, (Fr.dat0 V c).flushed n t = ((cfg0.win n).blk t).view.read (Elt Ideal) G) : (Fr.dat0 V c).arrAt n cfg0.N = G :=
  (Fr.dat0 V c).arrAt_eq_of_cover n G (fun t _ => hG t) fun i =>
    let ⟨t, y, e⟩ := hsurj i; ⟨t, hfl t, e ▸ hat t y ▸ View.emb_mem_set _ y⟩

/-- The rows scaled and projected by `W`, as an array. -/
def prj (W : Fin 1024 → Fin 1024 → ℝ) : Vec Ideal S4096x1024 .bf16 :=
  fun i => ((Cert.Spec.proj (Cert.Spec.normed E tok w) W (i 0) (i 1) : ℝ) : EReal)

include hH in
theorem rows_blk (t : Fin cfg0.N) (r : Fin 512) (k : Fin 1024) :
    (Fr.iblk0 V c 0 t : Vec Ideal S512x1024 .f32) (ix2 r k) = ((E (tok (rowAt t r)) k : ℝ) : EReal) :=
  (congrArg (V c main_v1) (at_rows (idx_in t).1 (ix2 r k) _ fun _ => rfl)).trans (hH _ k)

include hw in
theorem gain_blk (t : Fin cfg0.N) (k : Fin 1024) : (Fr.iblk0 V c 1 t : Vec Ideal S1024 .f32) (ix1 k) = ((w k : ℝ) : EReal) :=
  (congrArg (V c main_arg2) (at_zero (idx_in t).2.1 (ix1 k) _ fun _ => rfl)).trans (hw k)

include hWq hWk in
theorem wqk_blk (t : Fin cfg0.N) (k : Fin 1024) (j : Fin 2048) :
    (Fr.iblk0 V c 2 t : Vec Ideal S1024x2048 .bf16) (ix2 k j) = ((wqkT Wq Wk k j : ℝ) : EReal) := by
  refine (congrArg (V c main_v5) (at_zero (idx_in t).2.2.1 (ix2 k j) _ fun _ => rfl)).trans ?_
  have hj := j.isLt
  unfold wqkT
  by_cases h : j.val < 1024
  · rw [dif_pos h]; exact hWq k ⟨j.val, h⟩
  · have h' : j.val - 1024 < 1024 := by omega
    have e : (⟨1024 + (j.val - 1024), by omega⟩ : Fin 2048) = j := Fin.ext (by show 1024 + (j.val - 1024) = j.val; omega)
    rw [dif_neg h]
    exact (congrArg (fun j' => (V c main_v5 : Vec Ideal S1024x2048 .bf16) (ix2 k j')) e).symm.trans (hWk k ⟨j.val - 1024, h'⟩)

include hlo in
theorem lo_blk (t : Fin cfg0.N) (k : Fin 1024) (j : Fin 2048) : (Fr.iblk0 V c 3 t : Vec Ideal S1024x2048 .bf16) (ix2 k j) = (0 : EReal) :=
  (congrArg (V c main_v8) (at_zero (idx_in t).2.2.2.1 (ix2 k j) _ fun _ => rfl)).trans (hlo k j)

include hWv in
theorem wv_blk (t : Fin cfg0.N) (k j : Fin 1024) : (Fr.iblk0 V c 4 t : Vec Ideal S1024x1024 .bf16) (ix2 k j) = ((Wv j k : ℝ) : EReal) :=
  (congrArg (V c main_v10) (at_zero (idx_in t).2.2.2.2 (ix2 k j) _ fun _ => rfl)).trans (hWv k j)

include hH hw hWq hWk hlo in
/-- What a payload does on blocks that read reals, it does on point `t`'s blocks of the activations, the gain and the query/key weights. -/
theorem qk_point {P : Vec Ideal S512x1024 .f32 → Vec Ideal S1024 .f32 → Vec Ideal S1024x2048 .bf16 → Vec Ideal S1024x2048 .bf16 → Vec Ideal S512x1024 .bf16}
    {g : (Fin 512 → Fin 1024 → ℝ) → (Fin 1024 → ℝ) → (Fin 1024 → Fin 2048 → ℝ) → Fin 512 → Fin 1024 → EReal}
    (hP : ∀ x0 x1 x2 x3 H w Whi, (∀ r k, x0 (ix2 r k) = ((H r k : ℝ) : EReal)) → (∀ k, x1 (ix1 k) = ((w k : ℝ) : EReal)) →
      (∀ k j, x2 (ix2 k j) = ((Whi k j : ℝ) : EReal)) → (∀ k j, x3 (ix2 k j) = (0 : EReal)) → ∀ r j, P x0 x1 x2 x3 (ix2 r j) = g H w Whi r j)
    (t : Fin cfg0.N) (r : Fin 512) (j : Fin 1024) :
    P (Fr.iblk0 V c 0 t) (Fr.iblk0 V c 1 t) (Fr.iblk0 V c 2 t) (Fr.iblk0 V c 3 t) (ix2 r j)
      = g (fun r k => E (tok (rowAt t r)) k) w (wqkT Wq Wk) r j :=
  hP _ _ _ _ _ _ _ (rows_blk V c E tok hH t) (gain_blk V c w hw t) (wqk_blk V c Wq Wk hWq hWk t) (lo_blk V c hlo t) r j

include hH hw hWq hWk hlo in
theorem point_q_hi (t : Fin cfg0.N) (r : Fin 512) (j : Fin 1024) :
    Gen.k0_pay7 (F := Ideal) (Fr.iblk0 V c 0 t) (Fr.iblk0 V c 1 t) (Fr.iblk0 V c 2 t) (Fr.iblk0 V c 3 t) (Fr.iblk0 V c 2 t) (ix2 r j)
      = prj E tok w Wq (ix2 (rowAt t r) j) :=
  (qk_point V c E tok w Wq Wk hH hw hWq hWk hlo (P := fun x0 x1 x2 x3 => Gen.k0_pay7 x0 x1 x2 x3 x2) PayR0.pay7_apply t r j).trans
    (congrArg (fun s : ℝ => (s : EReal)) (Finset.sum_congr rfl fun k _ => by rw [wqkT_query]; rfl))

include hH hw hWq hWk hlo in
theorem point_k_hi (t : Fin cfg0.N) (r : Fin 512) (j : Fin 1024) :
    Gen.k0_pay9 (F := Ideal) (Fr.iblk0 V c 0 t) (Fr.iblk0 V c 1 t) (Fr.iblk0 V c 2 t) (Fr.iblk0 V c 3 t) (Fr.iblk0 V c 2 t) (ix2 r j)
      = prj E tok w Wk (ix2 (rowAt t r) j) :=
  (qk_point V c E tok w Wq Wk hH hw hWq hWk hlo (P := fun x0 x1 x2 x3 => Gen.k0_pay9 x0 x1 x2 x3 x2) PayR0.pay9_apply t r j).trans
    (congrArg (fun s : ℝ => (s : EReal)) (Finset.sum_congr rfl fun k _ => by rw [wqkT_key]; rfl))

include hH hw hWq hWk hlo in
theorem arr_q_hi (i : Fin 4096) (j : Fin 1024) :
    ((Fr.dat0 V c).arrAt 5 cfg0.N : Vec Ideal S4096x1024 .bf16) (ix2 i j) = ((Cert.Spec.proj (Cert.Spec.normed E tok w) Wq i j : ℝ) : EReal) :=
  congrFun (final_of V c 5 (prj E tok w Wq) flush0_5 _ at5 rows_surj fun t =>
    (Fr.after0_5 V c t).trans ((outs _ _ _ _ (Fr.iblk0 V c 4 t)).1.trans
      (tile_rows _ (prj E tok w Wq) t _ (at5 t) (point_q_hi V c E tok w Wq Wk hH hw hWq hWk hlo t)))) (ix2 i j)

include hH hw hWq hWk hlo in
theorem arr_q_lo (i : Fin 4096) (j : Fin 1024) :
    ((Fr.dat0 V c).arrAt 6 cfg0.N : Vec Ideal S4096x1024 .bf16) (ix2 i j) = (0 : EReal) :=
  congrFun (final_of V c 6 (fun _ => (0 : EReal)) flush0_6 _ at6 rows_surj fun t =>
    (Fr.after0_6 V c t).trans ((outs _ _ _ _ (Fr.iblk0 V c 4 t)).2.1.trans
      (tile_rows _ (fun _ => (0 : EReal)) t _ (at6 t) (qk_point V c E tok w Wq Wk hH hw hWq hWk hlo
        (P := fun x0 x1 x2 x3 => Gen.k0_pay8 x0 x1 x2 x3 x2) PayR0.pay8_apply t)))) (ix2 i j)

include hH hw hWq hWk hlo in
theorem arr_k_hi (i : Fin 4096) (j : Fin 1024) :
    ((Fr.dat0 V c).arrAt 7 cfg0.N : Vec Ideal S4096x1024 .bf16) (ix2 i j) = ((Cert.Spec.proj (Cert.Spec.normed E tok w) Wk i j : ℝ) : EReal) :=
  congrFun (final_of V c 7 (prj E tok w Wk) flush0_7 _ at7 rows_surj fun t =>
    (Fr.after0_7 V c t).trans ((outs _ _ _ _ (Fr.iblk0 V c 4 t)).2.2.1.trans
      (tile_rows _ (prj E tok w Wk) t _ (at7 t) (point_k_hi V c E tok w Wq Wk hH hw hWq hWk hlo t)))) (ix2 i j)

include hH hw hWq hWk hlo in
theorem arr_k_lo (i : Fin 4096) (j : Fin 1024) :
    ((Fr.dat0 V c).arrAt 8 cfg0.N : Vec Ideal S4096x1024 .bf16) (ix2 i j) = (0 : EReal) :=
  congrFun (final_of V c 8 (fun _ => (0 : EReal)) flush0_8 _ at8 rows_surj fun t =>
    (Fr.after0_8 V c t).trans ((outs _ _ _ _ (Fr.iblk0 V c 4 t)).2.2.2.1.trans
      (tile_rows _ (fun _ => (0 : EReal)) t _ (at8 t) (qk_point V c E tok w Wq Wk hH hw hWq hWk hlo
        (P := fun x0 x1 x2 x3 => Gen.k0_pay10 x0 x1 x2 x3 x2) PayR0.pay10_apply t)))) (ix2 i j)

include hH hw hWv in
theorem arr_v (i : Fin 4096) (j : Fin 1024) :
    ((Fr.dat0 V c).arrAt 9 cfg0.N : Vec Ideal S4096x1024 .bf16) (ix2 i j) = ((Cert.Spec.proj (Cert.Spec.normed E tok w) Wv i j : ℝ) : EReal) :=
  congrFun (final_of V c 9 (prj E tok w Wv) flush0_9 _ at9 rows_surj fun t =>
    (Fr.after0_9 V c t).trans ((outs _ _ (Fr.iblk0 V c 2 t) (Fr.iblk0 V c 3 t) _).2.2.2.2.trans
      (tile_rows _ (prj E tok w Wv) t _ (at9 t) (PayR0.pay1_apply _ _ _ (fun r k => E (tok (rowAt t r)) k) w (fun k j => Wv j k)
        (rows_blk V c E tok hH t) (gain_blk V c w hw t) (wv_blk V c Wv hWv t))))) (ix2 i j)

end

end Cert.KernelIdeal.R0Arr

end
-- ==== Proof.FrKernelIdeal.R1Pieces.lean ====
import proofs.«416823_j31155692765526_3_alg».proof.Proof.FrKernelIdeal.R1
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

private theorem zeroOff2 : (![0, 0] : Fin 2 → Nat) = fun _ => 0 := funext fun a => by fin_cases a <;> rfl

/-- A buffer whose last store filled it whole reads back as that store's payload. -/
private theorem read_back {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon _ _ _ fun y => ⟨_, List.mem_cons_self .., View.mem_set_unit_zero h inb y⟩).trans
    (View.canon_cons_unit_zero h inb w L)

/-- Folding a key block into the carried triple p = (M, L, A): max(M, rowmax s), then e^(M - m') L + rowsum e^(s - m') and e^(M - m') A + e^(s - m') x4. -/
def fold1 (x0 x1 x2 x3 x4 : Vec F S1024x1024 .bf16) (p : Vec F S1024x1 .f32 × Vec F S1024x1 .f32 × Vec F S1024x1024 .f32) :
    Vec F S1024x1 .f32 × Vec F S1024x1 .f32 × Vec F S1024x1024 .f32 :=
  (k1_pay2 (k1_pay8 x0 x1 x2 x3 p.1), k1_pay11 x0 x1 x2 x3 p.1 p.1 p.2.1,
    k1_pay1 (k1_pay9 x0 x1 x2 x3 p.1 p.1) (k1_pay10 x0 x1 x2 x3 p.1) p.2.2 x4)

variable {c : Dev nD} {i : grid1.Coords} {arg2 arg3 arg4 arg5 arg6 : Memref sig .tc .vmem S1024x1024 .bf16}
  {arg7 : Memref sig .tc .vmem S1024x1024 .f32} {arg8 arg9 : Memref sig .tc .vmem S1024x1 .f32}
  {arg10 : Memref sig .tc .vmem S1024x1024 .f32} {harg2 : arg2.IsWhole} {harg3 : arg3.IsWhole} {harg4 : arg4.IsWhole}
  {harg5 : arg5.IsWhole} {harg6 : arg6.IsWhole} {harg7 : arg7.IsWhole} {harg8 : arg8.IsWhole} {harg9 : arg9.IsWhole}
  {harg10 : arg10.IsWhole} {x0 x1 x2 x3 x4 : Vec F S1024x1024 .bf16}
  {p : Vec F S1024x1 .f32 × Vec F S1024x1 .f32 × Vec F S1024x1024 .f32}

local notation:max "on(" f ")" => f c i arg2 harg2 arg3 harg3 arg4 harg4 arg5 harg5 arg6 harg6 arg7 harg7 arg8 harg8 arg9 harg9 arg10 harg10

/-- First key block: the three buffers are reset to (-inf, 0, 0) before they are read, so the fold starts from those. -/
theorem read1_A {hc0 : cond1_0 i} {hc1 : ¬cond1_1 i} :
    (on(sout1_A_0) hc0 hc1 x0 x1 x2 x3 x4, on(sout1_A_1) hc0 hc1 x0 x1 x2 x3 x4, on(sout1_A_2) hc0 hc1 x0 x1 x2 x3 x4)
      = fold1 x0 x1 x2 x3 x4 (k1_pay4, k1_pay5, k1_pay6) := by
  unfold sout1_A_0 sout1_A_1 sout1_A_2 fold1 kernelRun1_A; dsimp only; sl_unfold_words
  simp only [read_back (S := S1024x1) _ _ zeroOff2, read_back (S := S1024x1024) _ _ zeroOff2, View.readAt_eq_ld, harg2.read_unread, harg3.read_unread, harg4.read_unread, harg5.read_unread, harg6.read_unread, View.ld_unit_zero (S := S1024x1024) zeroOff2, View.ld_unit_zero (S := S1024x1) zeroOff2, View.readCov_unit_zero (S := S1024x1) _ zeroOff2, View.readCov_unit_zero (S := S1024x1024) _ zeroOff2]

/-- A middle key block: each buffer is stored once, whole, after every load; the fold is over what came in. -/
theorem read1_B {hc0 : ¬cond1_0 i} {hc1 : ¬cond1_1 i} :
    (on(sout1_B_0) hc0 hc1 x0 x1 x2 x3 x4 p.1 p.2.1 p.2.2, on(sout1_B_1) hc0 hc1 x0 x1 x2 x3 x4 p.1 p.2.1 p.2.2,
      on(sout1_B_2) hc0 hc1 x0 x1 x2 x3 x4 p.1 p.2.1 p.2.2) = fold1 x0 x1 x2 x3 x4 p := by
  unfold sout1_B_0 sout1_B_1 sout1_B_2 fold1 kernelRun1_B; dsimp only; sl_unfold_words
  simp only [read_back (S := S1024x1) _ _ zeroOff2, read_back (S := S1024x1024) _ _ zeroOff2, View.readAt_eq_ld, harg2.read_unread, harg3.read_unread, harg4.read_unread, harg5.read_unread, harg6.read_unread, harg8.read_unread, harg9.read_unread, harg10.read_unread, View.ld_unit_zero (S := S1024x1024) zeroOff2, View.ld_unit_zero (S := S1024x1) zeroOff2, View.readCov_unit_zero (S := S1024x1) _ zeroOff2, View.readCov_unit_zero (S := S1024x1024) _ zeroOff2]

/-- The last key block folds as a middle one, -/
theorem read1_C {hc0 : ¬cond1_0 i} {hc1 : cond1_1 i} :
    (on(sout1_C_0) hc0 hc1 x0 x1 x2 x3 x4 p.1 p.2.1 p.2.2, on(sout1_C_1) hc0 hc1 x0 x1 x2 x3 x4 p.1 p.2.1 p.2.2,
      on(sout1_C_2) hc0 hc1 x0 x1 x2 x3 x4 p.1 p.2.1 p.2.2) = fold1 x0 x1 x2 x3 x4 p := by
  unfold sout1_C_0 sout1_C_1 sout1_C_2 fold1 kernelRun1_C; dsimp only; sl_unfold_words
  simp only [read_back (S := S1024x1) _ _ zeroOff2, read_back (S := S1024x1024) _ _ zeroOff2, View.readAt_eq_ld, harg2.read_unread, harg3.read_unread, harg4.read_unread, harg5.read_unread, harg6.read_unread, harg8.read_unread, harg9.read_unread, harg10.read_unread, View.ld_unit_zero (S := S1024x1024) zeroOff2, View.ld_unit_zero (S := S1024x1) zeroOff2, View.readCov_unit_zero (S := S1024x1) _ zeroOff2, View.readCov_unit_zero (S := S1024x1024) _ zeroOff2]

/-- and its output block is z * logistic z, z the new weighted sum over the new sum: both are loaded after they are stored. -/
theorem readOut1_C {hc0 : ¬cond1_0 i} {hc1 : cond1_1 i} : on(out1_C_5) hc0 hc1 x0 x1 x2 x3 x4 p.1 p.2.1 p.2.2
    = k1_pay3 (fold1 x0 x1 x2 x3 x4 p).2.2 (fold1 x0 x1 x2 x3 x4 p).2.1 := by
  unfold out1_C_5 fold1 kernelRun1_C; dsimp only; sl_unfold_words
  simp only [read_back (S := S1024x1) _ _ zeroOff2, read_back (S := S1024x1024) _ _ zeroOff2, View.readAt_eq_ld, harg2.read_unread, harg3.read_unread, harg4.read_unread, harg5.read_unread, harg6.read_unread, harg8.read_unread, harg9.read_unread, harg10.read_unread, View.ld_unit_zero (S := S1024x1024) zeroOff2, View.ld_unit_zero (S := S1024x1) zeroOff2, View.readCov_unit_zero (S := S1024x1) _ zeroOff2, View.readCov_unit_zero (S := S1024x1024) _ zeroOff2]

end Cert.KernelIdeal.Fr

end
-- ==== Proof.PayR1.lean ====
import proofs.«416823_j31155692765526_3_alg».proof.Proof.PayR0

noncomputable section

namespace Cert.KernelIdeal.PayR1

open Idealize.ShloMosaic Idealize.ShloMosaic.ValueIdx Cert.KernelIdeal Cert.KernelIdeal.Gen
open Cert.KernelIdeal.PayR0 (coe_sum shapeCast_a_a1_apply broadcastTo_a1_ab_apply lift_row rowSum_apply matmul_plain_apply)
open scoped BigOperators

theorem coe_max (x y : ℝ) : ((max x y : ℝ) : EReal) = max (x : EReal) (y : EReal) :=
  EReal.coe_strictMono.monotone.map_max

-- Coercion is monotone, so it commutes with the largest entry of a row.
theorem fold_max_coe (f : Fin 1024 → ℝ) :
    (Finset.univ : Finset (Fin 1024)).fold max (⊥ : EReal) (fun k => ((f k : ℝ) : EReal))
      = ((Cert.Spec.rowMax f : ℝ) : EReal) := by
  unfold Cert.Spec.rowMax
  rw [Finset.apply_sup'_eq_sup'_comp Finset.univ_nonempty (fun x : ℝ => (x : EReal)) (fun x y => coe_max x y),
    Finset.sup'_eq_sup]
  rfl

theorem ofBits_neg_inf : Ideal.ofBits .f32 0xFF800000#32 = ⊥ := by
  simp [Ideal.ofBits, Ideal.ieee]

-- The maximum along the second axis, read at row r, is the fold of max from -∞ over the row.
theorem rowMax_apply (src : FVec Ideal S1024x1024 .f32) (hφ : FKind.Formats .f32)
    (hacc : (0xFF800000#32 : BitVec 32) = 0xFF800000#32) (r : Fin 1024) :
    multiReduction (F := Ideal) .maximumf [1] S1024 src 0xFF800000#32 reduces_S1024x1024_S1024 hφ hacc (ix1 r)
      = (Finset.univ : Finset (Fin 1024)).fold max (⊥ : EReal) (fun k => src (ix2 r k)) :=
  (Ideal.multiReduction_maximumf_single src _ reduces_S1024x1024_S1024 hφ hacc (ix1 r)).trans
    (congrArg₂ (fun (b : EReal) (g : Fin 1024 → EReal) => (Finset.univ : Finset (Fin 1024)).fold max b g)
      ofBits_neg_inf (funext fun k => congrArg src (lift_row reduces_S1024x1024_S1024 r k)))

-- A product of an m×k matrix with the rows of an n×k matrix into a zero accumulator, read at (r, j).
theorem matmul_transposedRhs_apply {m k n : ℕ} (D : DotDims ⟨2, ![m, k]⟩ ⟨2, ![n, k]⟩ ⟨2, ![m, n]⟩)
    (hD : D = .transposedRhs m k n) (a : FVec Ideal ⟨2, ![m, k]⟩ .bf16) (b : FVec Ideal ⟨2, ![n, k]⟩ .bf16)
    (r : Fin m) (j : Fin n) :
    matmul (F := Ideal) D none a b (constant (F := Ideal) ⟨2, ![m, n]⟩ .f32 0x00000000#32) (ix2 r j)
      = ∑ c : Fin k, a (ix2 r c) * b (ix2 j c) := by
  subst hD
  simp only [matmul]
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 r j) ((contrEquiv1 _ k rfl rfl).symm c) = ix2 r c := by
    funext ax; apply Fin.ext
    match ax with
    | ⟨0, _⟩ => simp [DotDims.lhsIdx, DotDims.transposedRhs]; rfl
    | ⟨1, _⟩ => simp [DotDims.lhsIdx, DotDims.transposedRhs]; exact hc
  have er : (DotDims.transposedRhs m k n).rhsIdx (ix2 r j) ((contrEquiv1 _ k rfl rfl).symm c) = ix2 j c := by
    funext ax; apply Fin.ext
    match ax with
    | ⟨0, _⟩ => simp [DotDims.rhsIdx, DotDims.transposedRhs]; rfl
    | ⟨1, _⟩ => simp [DotDims.rhsIdx, DotDims.transposedRhs]; exact hc
  rw [el, er]

theorem exp_apply {s : Shape} {φ : FTy} (a : FVec Ideal s φ) (i : s.Idx) :
    Idealize.ShloMosaic.exp a i = Ideal.exp (a i) := rfl
theorem logistic_apply {s : Shape} {φ : FTy} (a : FVec Ideal s φ) (i : s.Idx) :
    Idealize.ShloMosaic.logistic a i = Ideal.logistic (a i) := rfl

def tileScores (Qb Kb : Fin 1024 → Fin 1024 → ℝ) (r r' : Fin 1024) : ℝ := ∑ d, Qb r d * Kb r' d

theorem pay4_apply (j : S1024x1.Idx) : k1_pay4 (F := Ideal) j = ⊥ := by
  unfold Gen.k1_pay4
  simp only [shapeCast_self, broadcast_apply]
  exact ofBits_neg_inf

theorem pay2_eq (v : FVec Ideal S1024x1 .f32) : k1_pay2 (F := Ideal) v = v := by
  unfold Gen.k1_pay2
  exact shapeCast_self v _

theorem pay1_apply (v22 : FVec Ideal S1024x1 .f32) (v25 : FVec Ideal S1024x1024 .f32) (v34 : Vec Ideal S1024x1024 .f32)
    (v38 : Vec Ideal S1024x1024 .bf16) (r d : Fin 1024) :
    k1_pay1 (F := Ideal) v22 v25 v34 v38 (ix2 r d)
      = v22 (ix2 r (0 : Fin 1)) * v34 (ix2 r d) + ∑ k : Fin 1024, v25 (ix2 r k) * v38 (ix2 k d) := by
  unfold Gen.k1_pay1
  rw [shapeCast_self, shapeCast_self, addf_apply, mulf_apply, broadcastTo_a1_ab_apply,
    matmul_plain_apply dot_S1024x1024_S1024x1024_S1024x1024_1_0_0_1_n_n rfl]
  simp only [truncf_apply]

theorem pay3_apply (acc : Vec Ideal S1024x1024 .f32) (l : Vec Ideal S1024x1 .f32) (r d : Fin 1024) :
    k1_pay3 (F := Ideal) acc l (ix2 r d)
      = Ideal.div (acc (ix2 r d)) (l (ix2 r (0 : Fin 1))) * Ideal.logistic (Ideal.div (acc (ix2 r d)) (l (ix2 r (0 : Fin 1)))) := by
  unfold Gen.k1_pay3
  rw [mulf_apply, logistic_apply, divf_apply, broadcastTo_a1_ab_apply]

variable (x0 x1 x2 x3 x4 : Vec Ideal S1024x1024 .bf16) (Qb Kb Vb : Fin 1024 → Fin 1024 → ℝ)
  (hx0 : ∀ r d, x0 (ix2 r d) = (Qb r d : EReal)) (hx1 : ∀ r d, x1 (ix2 r d) = 0)
  (hx2 : ∀ r d, x2 (ix2 r d) = (Kb r d : EReal)) (hx3 : ∀ r d, x3 (ix2 r d) = 0)
  (hx4 : ∀ r d, x4 (ix2 r d) = (Vb r d : EReal))
  (sm sm' sl : Vec Ideal S1024x1 .f32) (sa : Vec Ideal S1024x1024 .f32)
  (cm cl : Fin 1024 → ℝ) (ca : Fin 1024 → Fin 1024 → ℝ)
  (hsm : ∀ r, sm (ix2 r (0 : Fin 1)) = (cm r : EReal)) (hsl : ∀ r, sl (ix2 r (0 : Fin 1)) = (cl r : EReal))
  (hsa : ∀ r d, sa (ix2 r d) = (ca r d : EReal))

theorem pay9_apply (j : S1024x1.Idx) :
    k1_pay9 (F := Ideal) x0 x1 x2 x3 sm sm' j = Ideal.exp (sm' j - k1_pay8 (F := Ideal) x0 x1 x2 x3 sm j) := by
  unfold Gen.k1_pay9
  rw [exp_apply, subf_apply]

theorem pay10_apply (r r' : Fin 1024) :
    k1_pay10 (F := Ideal) x0 x1 x2 x3 sm (ix2 r r')
      = Ideal.exp (k1_pay7 (F := Ideal) x0 x1 x2 x3 (ix2 r r') - k1_pay8 (F := Ideal) x0 x1 x2 x3 sm (ix2 r (0 : Fin 1))) := by
  unfold Gen.k1_pay10
  rw [exp_apply, subf_apply, broadcastTo_a1_ab_apply]

theorem pay11_apply (r : Fin 1024) :
    k1_pay11 (F := Ideal) x0 x1 x2 x3 sm sm' sl (ix2 r (0 : Fin 1))
      = k1_pay9 (F := Ideal) x0 x1 x2 x3 sm sm' (ix2 r (0 : Fin 1)) * sl (ix2 r (0 : Fin 1))
        + ∑ k : Fin 1024, k1_pay10 (F := Ideal) x0 x1 x2 x3 sm (ix2 r k) := by
  unfold Gen.k1_pay11
  rw [shapeCast_self, addf_apply, mulf_apply]
  refine congrArg (k1_pay9 (F := Ideal) x0 x1 x2 x3 sm sm' (ix2 r (0 : Fin 1)) * sl (ix2 r (0 : Fin 1)) + ·) ?_
  exact (shapeCast_a_a1_apply _ _ r 0).trans (rowSum_apply _ _ _ _ r)

include hx0 hx1 hx2 hx3

-- With the low parts zero, two of the three partial products vanish.
theorem pay7_eq (r r' : Fin 1024) :
    k1_pay7 (F := Ideal) x0 x1 x2 x3 (ix2 r r') = ((tileScores Qb Kb r r' : ℝ) : EReal) := by
  unfold Gen.k1_pay7
  simp only [shapeCast_self, addf_apply,
    matmul_transposedRhs_apply dot_S1024x1024_S1024x1024_S1024x1024_1_1_0_0_n_n rfl, hx0, hx1, hx2, hx3]
  simp only [mul_zero, zero_mul, Finset.sum_const_zero, add_zero, ← EReal.coe_mul, coe_sum]
  rfl

theorem pay8_apply (r : Fin 1024) :
    k1_pay8 (F := Ideal) x0 x1 x2 x3 sm (ix2 r (0 : Fin 1))
      = max (sm (ix2 r (0 : Fin 1))) ((Cert.Spec.rowMax (tileScores Qb Kb r) : ℝ) : EReal) := by
  unfold Gen.k1_pay8
  rw [maximumf_apply, shapeCast_a_a1_apply, rowMax_apply, ← fold_max_coe]
  simp only [pay7_eq x0 x1 x2 x3 Qb Kb hx0 hx1 hx2 hx3]

-- Once the new maximum of row r is the real m, the weight at (r, r') is e^(score − m).
theorem pay10_of_max (r : Fin 1024) (m : ℝ)
    (hm : k1_pay8 (F := Ideal) x0 x1 x2 x3 sm (ix2 r (0 : Fin 1)) = (m : EReal)) (r' : Fin 1024) :
    k1_pay10 (F := Ideal) x0 x1 x2 x3 sm (ix2 r r') = ((Real.exp (tileScores Qb Kb r r' - m) : ℝ) : EReal) := by
  rw [pay10_apply, pay7_eq x0 x1 x2 x3 Qb Kb hx0 hx1 hx2 hx3, hm, ← EReal.coe_sub, Ideal.exp_coe]

theorem pay8_first (r : Fin 1024) :
    k1_pay8 (F := Ideal) x0 x1 x2 x3 (k1_pay4 (F := Ideal)) (ix2 r (0 : Fin 1))
      = ((Cert.Spec.rowMax (tileScores Qb Kb r) : ℝ) : EReal) := by
  rw [pay8_apply x0 x1 x2 x3 Qb Kb hx0 hx1 hx2 hx3, pay4_apply]
  exact max_eq_right bot_le

-- From -∞ the rescaling factor is e^(-∞) = 0, so the carried sums drop out.
theorem pay11_first (r d : Fin 1024) :
    k1_pay11 (F := Ideal) x0 x1 x2 x3 (k1_pay4 (F := Ideal)) (k1_pay4 (F := Ideal)) (k1_pay5 (F := Ideal)) (ix2 r (0 : Fin 1))
      = (((Cert.Spec.first (tileScores Qb Kb r) (fun r' => Vb r' d)).l : ℝ) : EReal) := by
  have hm := pay8_first x0 x1 x2 x3 Qb Kb hx0 hx1 hx2 hx3 r
  rw [pay11_apply, pay9_apply, pay4_apply, EReal.bot_sub, Ideal.exp_bot, zero_mul, zero_add]
  simp only [pay10_of_max x0 x1 x2 x3 Qb Kb hx0 hx1 hx2 hx3 _ r _ hm, coe_sum]
  rfl

include hx4 in
theorem pay1_first (r d : Fin 1024) :
    k1_pay1 (F := Ideal) (k1_pay9 (F := Ideal) x0 x1 x2 x3 (k1_pay4 (F := Ideal)) (k1_pay4 (F := Ideal)))
        (k1_pay10 (F := Ideal) x0 x1 x2 x3 (k1_pay4 (F := Ideal))) (k1_pay6 (F := Ideal)) x4 (ix2 r d)
      = (((Cert.Spec.first (tileScores Qb Kb r) (fun r' => Vb r' d)).a : ℝ) : EReal) := by
  have hm := pay8_first x0 x1 x2 x3 Qb Kb hx0 hx1 hx2 hx3 r
  rw [pay1_apply, pay9_apply, pay4_apply, EReal.bot_sub, Ideal.exp_bot, zero_mul, zero_add]
  simp only [pay10_of_max x0 x1 x2 x3 Qb Kb hx0 hx1 hx2 hx3 _ r _ hm, hx4, ← EReal.coe_mul, coe_sum]
  rfl

include hsm

theorem pay8_next (r d : Fin 1024) :
    k1_pay8 (F := Ideal) x0 x1 x2 x3 sm (ix2 r (0 : Fin 1))
      = (((Cert.Spec.next ⟨cm r, cl r, ca r d⟩ (tileScores Qb Kb r) (fun r' => Vb r' d)).m : ℝ) : EReal) := by
  rw [pay8_apply x0 x1 x2 x3 Qb Kb hx0 hx1 hx2 hx3, hsm, ← coe_max]
  rfl

-- The carried sums are rescaled by e^(old maximum − new maximum) and the tile's weights added.
include hsl in
theorem pay11_next (r d : Fin 1024) :
    k1_pay11 (F := Ideal) x0 x1 x2 x3 sm sm sl (ix2 r (0 : Fin 1))
      = (((Cert.Spec.next ⟨cm r, cl r, ca r d⟩ (tileScores Qb Kb r) (fun r' => Vb r' d)).l : ℝ) : EReal) := by
  have hm := pay8_next x0 x1 x2 x3 Qb Kb Vb hx0 hx1 hx2 hx3 sm cm cl ca hsm r d
  rw [pay11_apply, pay9_apply, hm, hsm, hsl, ← EReal.coe_sub, Ideal.exp_coe, ← EReal.coe_mul]
  simp only [pay10_of_max x0 x1 x2 x3 Qb Kb hx0 hx1 hx2 hx3 sm r _ hm, coe_sum, ← EReal.coe_add]
  rfl

include hx4 hsa in
theorem pay1_next (r d : Fin 1024) :
    k1_pay1 (F := Ideal) (k1_pay9 (F := Ideal) x0 x1 x2 x3 sm sm) (k1_pay10 (F := Ideal) x0 x1 x2 x3 sm) sa x4 (ix2 r d)
      = (((Cert.Spec.next ⟨cm r, cl r, ca r d⟩ (tileScores Qb Kb r) (fun r' => Vb r' d)).a : ℝ) : EReal) := by
  have hm := pay8_next x0 x1 x2 x3 Qb Kb Vb hx0 hx1 hx2 hx3 sm cm cl ca hsm r d
  rw [pay1_apply, pay9_apply, hm, hsm, hsa, ← EReal.coe_sub, Ideal.exp_coe, ← EReal.coe_mul]
  simp only [pay10_of_max x0 x1 x2 x3 Qb Kb hx0 hx1 hx2 hx3 sm r _ hm, hx4, ← EReal.coe_mul, coe_sum, ← EReal.coe_add]
  rfl

omit hx0 hx1 hx2 hx3 hsm

-- Division by a positive running sum is the product with its reciprocal.
theorem pay3_last (acc : Vec Ideal S1024x1024 .f32) (l : Vec Ideal S1024x1 .f32)
    (a : Fin 1024 → Fin 1024 → ℝ) (ll : Fin 1024 → ℝ)
    (hacc : ∀ r d, acc (ix2 r d) = (a r d : EReal)) (hl : ∀ r, l (ix2 r (0 : Fin 1)) = (ll r : EReal))
    (r d : Fin 1024) (hpos : 0 < ll r) :
    k1_pay3 (F := Ideal) acc l (ix2 r d) = ((Cert.Spec.gate (a r d * (1 / ll r)) : ℝ) : EReal) := by
  rw [pay3_apply, hacc, hl, Ideal.div_coe (ne_of_gt hpos), ← EReal.coe_mul, Ideal.logistic_coe, ← EReal.coe_mul]
  rfl

end Cert.KernelIdeal.PayR1
end
-- ==== Proof.R1Cover.lean ====
import proofs.«416823_j31155692765526_3_alg».proof.Proof.FrKernelIdeal.R1
import proofs.«416823_j31155692765526_3_alg».proof.Proof.Spec
import Idealize.ShloMosaic.Lib.Pipeline.Value
import Idealize.ShloMosaic.Lib.ValueIdx

noncomputable section

namespace Cert.KernelIdeal.R1Cover

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem lt16 (t : Fin cfg1.N) : t.val < 16 := Nat.lt_of_lt_of_eq t.isLt N_1

/-- Point t pairs query block t / 4 with key block t % 4: the query and output windows sit at row block t / 4, the key and value windows at t % 4. -/
theorem idx_facts1 : ∀ t : Fin cfg1.N,
    win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = t.val % 4 ∧ win1_2.index t (1 : Fin 2) = 0
    ∧ win1_3.index t (0 : Fin 2) = t.val % 4 ∧ win1_3.index t (1 : Fin 2) = 0
    ∧ win1_4.index t (0 : Fin 2) = t.val % 4 ∧ win1_4.index t (1 : Fin 2) = 0
    ∧ win1_5.index t (0 : Fin 2) = t.val / 4 ∧ win1_5.index t (1 : Fin 2) = 0 :=
  (by decide +kernel : ∀ t : Fin grid1.N, _)

/-- The index at row 1024 I + r and column d, with I = q mod 4, is (row r of block q, d). -/
theorem ix_blk {I J q : ℕ} (hI : I = q % 4) (hJ : J = 0) (r d : Fin 1024) {x : S4096x1024.Idx}
    (h0 : (x 0).val = I * 1024 + 1 * r.val) (h1 : (x 1).val = J * 1024 + 1 * d.val) :
    x = ix2 (Cert.Spec.key (Cert.Spec.blk q) r) d :=
  Shape.idx_ext₂ (by rw [h0, hI]; show _ = 1024 * (q % 4) + r.val; omega) (by rw [h1, hJ]; show _ = d.val; omega)

/-- Row i lies in query block i / 1024, which is written back at its last key block, point 4 (i / 1024) + 3. -/
theorem covered (i : S4096x1024.Idx) :
    ∃ t : Fin cfg1.N, (cfg1.win 5).flush t = true ∧ i ∈ ((cfg1.win 5).blk t).view.set := by
  have hi0 : (i 0).val < 4096 := idx2_lt0 i
  have hi1 : (i 1).val < 1024 := idx2_lt1 i
  obtain ⟨t, ht⟩ : ∃ t : Fin cfg1.N, t.val = 4 * ((i 0).val / 1024) + 3 :=
    ⟨⟨4 * ((i 0).val / 1024) + 3, by rw [show cfg1.N = 16 from N_1]; omega⟩, rfl⟩
  obtain ⟨-, -, -, -, -, -, -, -, -, -, e0, e1⟩ := idx_facts1 t
  refine ⟨t, (flush1_5 t).mpr (by omega), ?_⟩
  show i ∈ ((View.whole main_v12).slice (win1_5.rect t)).set
  rw [View.set_slice_whole, Rect.mem_set_unit]
  intro a
  match a with
  | ⟨0, _⟩ =>
    show win1_5.index t (0 : Fin 2) * 1024 ≤ (i 0).val ∧ (i 0).val < win1_5.index t (0 : Fin 2) * 1024 + 1024
    rw [e0]; omega
  | ⟨1, _⟩ =>
    show win1_5.index t (1 : Fin 2) * 1024 ≤ (i 1).val ∧ (i 1).val < win1_5.index t (1 : Fin 2) * 1024 + 1024
    rw [e1]; omega

/-- If every write-back (t % 4 = 3) writes G restricted to the rows of query block t / 4, the array ends holding G: the written blocks cover it. -/
theorem arr_of_blocks (c : Dev nD) (G : Fin 4096 → Fin 1024 → EReal)
    (hblock : ∀ (t : Fin cfg1.N), t.val % 4 = 3 → ∀ (r d : Fin 1024),
      ((Fr.outsAt1 V c t.val t.isLt).1 : Vec Ideal S1024x1024 .f32) (ix2 r d) = G (Cert.Spec.key (Cert.Spec.blk (t.val / 4)) r) d)
    (i : Fin 4096) (d : Fin 1024) :
    ((Fr.dat1 V c).arrAt 5 cfg1.N : Vec Ideal S4096x1024 .f32) (ix2 i d) = G i d :=
  congrFun ((Fr.dat1 V c).arrAt_eq_of_cover 5 (fun i : S4096x1024.Idx => (G (i 0) (i 1) : Elt Ideal .f32)) (fun t hf => by
    obtain ⟨-, -, -, -, -, -, -, -, -, -, e0, e1⟩ := idx_facts1 t
    show (cfg1.win 5).cut (grid1.coords t) ((Fr.dat1 V c).after 5 t) = _
    rw [Fr.after1_5]
    funext j
    refine ((congrArg _ (eq_ix2 j)).trans (hblock t ((flush1_5 t).mp hf) (j 0) (j 1))).trans ?_
    exact (congrArg (fun i : S4096x1024.Idx => G (i 0) (i 1))
      (ix_blk (e0.trans (by have := lt16 t; omega)) e1 (j 0) (j 1) rfl rfl)).symm) covered) (ix2 i d)

end Cert.KernelIdeal.R1Cover

end
-- ==== Proof.R1Arr.lean ====
import proofs.«416823_j31155692765526_3_alg».proof.Proof.FrKernelIdeal.R1
import proofs.«416823_j31155692765526_3_alg».proof.Proof.FrKernelIdeal.R1Pieces
import proofs.«416823_j31155692765526_3_alg».proof.Proof.PayR1
import proofs.«416823_j31155692765526_3_alg».proof.Proof.R1Cover
import proofs.«416823_j31155692765526_3_alg».proof.Proof.Spec
import Idealize.ShloMosaic.Lib.Pipeline.Value
import Idealize.ShloMosaic.Lib.ValueIdx

noncomputable section

namespace Cert.KernelIdeal.R1Arr

open Cert.KernelIdeal Cert.KernelIdeal.Gen Cert.KernelIdeal.Fr Cert.KernelIdeal.R1Cover
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The running sum is a non-empty sum of exponentials. -/
theorem carry_l_pos (s x : Fin 4096 → ℝ) (n : ℕ) : 0 < (Cert.Spec.carry s x n).l := by
  rw [Cert.Spec.carry_l]
  exact Finset.sum_pos (fun i _ => Finset.sum_pos (fun r _ => Real.exp_pos _) Finset.univ_nonempty)
    ⟨0, Finset.mem_range.2 (Nat.succ_pos n)⟩

/-- Row r of block q mod 4 of a 4096-row array. -/
abbrev row (q : ℕ) (r : Fin 1024) : Fin 4096 := Cert.Spec.key (Cert.Spec.blk q) r

/-- At point t the query blocks hold the rows of query block t / 4, the key and value blocks those of key block t % 4. -/
theorem iblk1_apply (c : Dev nD) (t : Fin cfg1.N) (r d : Fin 1024) :
    (iblk1 V c 0 t : Vec Ideal S1024x1024 .bf16) (ix2 r d) = V c main_v11_0 (ix2 (row (t.val / 4) r) d)
    ∧ (iblk1 V c 1 t : Vec Ideal S1024x1024 .bf16) (ix2 r d) = V c main_v11_1 (ix2 (row (t.val / 4) r) d)
    ∧ (iblk1 V c 2 t : Vec Ideal S1024x1024 .bf16) (ix2 r d) = V c main_v11_2 (ix2 (row t.val r) d)
    ∧ (iblk1 V c 3 t : Vec Ideal S1024x1024 .bf16) (ix2 r d) = V c main_v11_3 (ix2 (row t.val r) d)
    ∧ (iblk1 V c 4 t : Vec Ideal S1024x1024 .bf16) (ix2 r d) = V c main_v11_4 (ix2 (row t.val r) d) := by
  obtain ⟨a0, b0, a1, b1, a2, b2, a3, b3, a4, b4, -⟩ := idx_facts1 t
  have h : t.val / 4 = t.val / 4 % 4 := by have := lt16 t; omega
  exact ⟨congrArg (V c main_v11_0) (ix_blk (a0.trans h) b0 r d rfl rfl),
    congrArg (V c main_v11_1) (ix_blk (a1.trans h) b1 r d rfl rfl), congrArg (V c main_v11_2) (ix_blk a2 b2 r d rfl rfl),
    congrArg (V c main_v11_3) (ix_blk a3 b3 r d rfl rfl), congrArg (V c main_v11_4) (ix_blk a4 b4 r d rfl rfl)⟩

theorem carry_at_first (s x : Fin 4096 → ℝ) (n : ℕ) (h0 : n % 4 = 0) :
    Cert.Spec.carry s x (n % 4) = Cert.Spec.first (fun r => s (row n r)) (fun r => x (row n r)) := by
  have hb : Cert.Spec.blk 0 = Cert.Spec.blk n := Fin.ext (by simp only [Cert.Spec.blk]; omega)
  rw [h0, Cert.Spec.carry_zero, hb]

theorem carry_at_next (s x : Fin 4096 → ℝ) (n k : ℕ) (hk : n % 4 = k + 1) :
    Cert.Spec.carry s x (n % 4) = Cert.Spec.next (Cert.Spec.carry s x k) (fun r => s (row n r)) (fun r => x (row n r)) := by
  have hb : Cert.Spec.blk (k + 1) = Cert.Spec.blk n := Fin.ext (by simp only [Cert.Spec.blk]; omega)
  rw [hk, Cert.Spec.carry_succ, hb]

/-- The three carried buffers p hold the carries C: maximum and sum by row, weighted sum by row and column. -/
def Holds (p : Vec Ideal S1024x1 .f32 × Vec Ideal S1024x1 .f32 × Vec Ideal S1024x1024 .f32)
    (C : Fin 1024 → Fin 1024 → Cert.Spec.Carry) : Prop :=
  ∀ r d, p.1 (ix2 r (0 : Fin 1)) = (((C r d).m : ℝ) : EReal) ∧ p.2.1 (ix2 r (0 : Fin 1)) = (((C r d).l : ℝ) : EReal)
    ∧ p.2.2 (ix2 r d) = (((C r d).a : ℝ) : EReal)

section Point

variable {x0 x1 x2 x3 x4 : Vec Ideal S1024x1024 .bf16} {Qb Kb Vb : Fin 1024 → Fin 1024 → ℝ}
  (hx0 : ∀ r d, x0 (ix2 r d) = ((Qb r d : ℝ) : EReal)) (hx1 : ∀ r d, x1 (ix2 r d) = (0 : EReal))
  (hx2 : ∀ r d, x2 (ix2 r d) = ((Kb r d : ℝ) : EReal)) (hx3 : ∀ r d, x3 (ix2 r d) = (0 : EReal))
  (hx4 : ∀ r d, x4 (ix2 r d) = ((Vb r d : ℝ) : EReal))
include hx0 hx1 hx2 hx3 hx4

/-- Folding a key block into the reset values gives the fresh carry over its keys. -/
theorem first_vals : Holds (fold1 x0 x1 x2 x3 x4 (k1_pay4 (F := Ideal), k1_pay5 (F := Ideal), k1_pay6 (F := Ideal)))
    (fun r d => Cert.Spec.first (PayR1.tileScores Qb Kb r) (fun r' => Vb r' d)) := by
  intro r d
  unfold fold1; dsimp only
  rw [PayR1.pay2_eq]
  exact ⟨PayR1.pay8_first x0 x1 x2 x3 Qb Kb hx0 hx1 hx2 hx3 r, PayR1.pay11_first x0 x1 x2 x3 Qb Kb Vb hx0 hx1 hx2 hx3 r d,
    PayR1.pay1_first x0 x1 x2 x3 x4 Qb Kb Vb hx0 hx1 hx2 hx3 hx4 r d⟩

/-- Folding it into buffers that hold the carries C gives C with its keys folded in. -/
theorem next_vals {p : Vec Ideal S1024x1 .f32 × Vec Ideal S1024x1 .f32 × Vec Ideal S1024x1024 .f32}
    {C : Fin 1024 → Fin 1024 → Cert.Spec.Carry} (hp : Holds p C) : Holds (fold1 x0 x1 x2 x3 x4 p)
      (fun r d => Cert.Spec.next (C r d) (PayR1.tileScores Qb Kb r) (fun r' => Vb r' d)) := by
  intro r d
  unfold fold1; dsimp only
  rw [PayR1.pay2_eq]
  have hm := fun r' => (hp r' d).1
  exact ⟨PayR1.pay8_next x0 x1 x2 x3 Qb Kb Vb hx0 hx1 hx2 hx3 p.1 _ (fun r' => (C r' d).l) (fun r' d' => (C r' d').a) hm r d,
    PayR1.pay11_next x0 x1 x2 x3 Qb Kb Vb hx0 hx1 hx2 hx3 p.1 p.2.1 _ _ (fun r' d' => (C r' d').a) hm (fun r' => (hp r' d).2.1) r d,
    PayR1.pay1_next x0 x1 x2 x3 x4 Qb Kb Vb hx0 hx1 hx2 hx3 hx4 p.1 p.2.2 _ (fun r' => (C r' d).l) _ hm (fun r' d' => (hp r' d').2.2) r d⟩

end Point

/-- The fold of point t's five input blocks. -/
abbrev foldAt (c : Dev nD) (t : Fin cfg1.N) :=
  fold1 (F := Ideal) (iblk1 V c 0 t) (iblk1 V c 1 t) (iblk1 V c 2 t) (iblk1 V c 3 t) (iblk1 V c 4 t)

theorem outs_first (c : Dev nD) (t : Fin cfg1.N) (h0 : t.val % 4 = 0) :
    (outsAt1 V c t.val t.isLt).2 = foldAt V c t (k1_pay4 (F := Ideal), k1_pay5 (F := Ideal), k1_pay6 (F := Ideal)) := by
  rw [outsAt1_A V c t h0 (by omega)]; exact read1_A

theorem outs_next (c : Dev nD) (t : Fin cfg1.N) (h0 : ¬t.val % 4 = 0) : (outsAt1 V c t.val t.isLt).2
    = foldAt V c t (outsAt1 V c (t.val - 1) (Nat.lt_of_le_of_lt (Nat.sub_le _ _) t.isLt)).2 := by
  by_cases h3 : t.val % 4 = 3
  · rw [outsAt1_C V c t h0 h3]; exact read1_C
  · rw [outsAt1_B V c t h0 h3]; exact read1_B

theorem outs_last (c : Dev nD) (t : Fin cfg1.N) (h3 : t.val % 4 = 3) : (outsAt1 V c t.val t.isLt).1
    = k1_pay3 (outsAt1 V c t.val t.isLt).2.2.2 (outsAt1 V c t.val t.isLt).2.2.1 := by
  rw [outs_next V c t (by omega), outsAt1_C V c t (by omega) h3]; unfold atC1; dsimp only; exact readOut1_C (F := Ideal)

/-- The carry of row r of query block q against value column d after key blocks 0 … k. -/
abbrev carryAt (Q K Vv : Fin 4096 → Fin 1024 → ℝ) (q k : ℕ) (r d : Fin 1024) : Cert.Spec.Carry :=
  Cert.Spec.carry (Cert.Spec.scores Q K (row q r)) (fun j => Vv j d) k

section Walk

variable (c : Dev nD) (Q K Vv : Fin 4096 → Fin 1024 → ℝ)
  (hq : ∀ i d, V c main_v11_0 (ix2 i d) = ((Q i d : ℝ) : EReal)) (hql : ∀ i d, V c main_v11_1 (ix2 i d) = (0 : EReal))
  (hk : ∀ i d, V c main_v11_2 (ix2 i d) = ((K i d : ℝ) : EReal)) (hkl : ∀ i d, V c main_v11_3 (ix2 i d) = (0 : EReal))
  (hv : ∀ i d, V c main_v11_4 (ix2 i d) = ((Vv i d : ℝ) : EReal))
include hq hql hk hkl hv

/-- After point n the buffers hold the carry of query block n / 4 after key blocks 0 … n % 4: the first key block starts afresh, a later one steps from the point before. -/
theorem inv (n : ℕ) : ∀ hn : n < cfg1.N, Holds (outsAt1 V c n hn).2 (carryAt Q K Vv (n / 4) (n % 4)) := by
  induction n using Nat.strong_induction_on with
  | _ n ih =>
    intro hn
    have hb := iblk1_apply V c ⟨n, hn⟩
    have hx0 := fun r d => (hb r d).1.trans (hq _ _)
    have hx1 := fun r d => (hb r d).2.1.trans (hql _ _)
    have hx2 := fun r d => (hb r d).2.2.1.trans (hk _ _)
    have hx3 := fun r d => (hb r d).2.2.2.1.trans (hkl _ _)
    have hx4 := fun r d => (hb r d).2.2.2.2.trans (hv _ _)
    by_cases h0 : n % 4 = 0
    · rw [outs_first V c ⟨n, hn⟩ h0]
      intro r d
      rw [show carryAt Q K Vv (n / 4) (n % 4) r d = _ from carry_at_first _ _ n h0]
      exact first_vals hx0 hx1 hx2 hx3 hx4 r d
    · have hn1 : n - 1 < cfg1.N := Nat.lt_of_le_of_lt (Nat.sub_le _ _) hn
      have ihp := ih (n - 1) (by omega) hn1
      rw [show (n - 1) / 4 = n / 4 by omega] at ihp
      rw [outs_next V c ⟨n, hn⟩ h0]
      intro r d
      rw [show carryAt Q K Vv (n / 4) (n % 4) r d = _ from carry_at_next _ _ n ((n - 1) % 4) (by omega)]
      exact next_vals hx0 hx1 hx2 hx3 hx4 ihp r d

/-- The last key block stores the gated ratio of the new weighted sum to the new sum, which is positive: the gated blockwise average of the row. -/
theorem out_last (t : Fin cfg1.N) (h3 : t.val % 4 = 3) (r d : Fin 1024) : (outsAt1 V c t.val t.isLt).1 (ix2 r d)
    = ((Cert.Spec.gate (Cert.Spec.blockwise (Cert.Spec.scores Q K (row (t.val / 4) r)) (fun j => Vv j d)) : ℝ) : EReal) := by
  have h := inv V c Q K Vv hq hql hk hkl hv t.val t.isLt
  rw [h3] at h
  rw [outs_last V c t h3]
  exact PayR1.pay3_last _ _ _ _ (fun r d => (h r d).2.2) (fun r => (h r d).2.1) r d (carry_l_pos _ _ 3)

/-- Every row lies in one query block, whose last key block writes it. -/
theorem out_apply (i : Fin 4096) (d : Fin 1024) :
    ((dat1 V c).arrAt 5 cfg1.N : Vec Ideal S4096x1024 .f32) (ix2 i d)
      = ((Cert.Spec.gate (Cert.Spec.blockwise (Cert.Spec.scores Q K i) (fun j => Vv j d)) : ℝ) : EReal) :=
  arr_of_blocks V c
    (fun i d => ((Cert.Spec.gate (Cert.Spec.blockwise (Cert.Spec.scores Q K i) (fun j => Vv j d)) : ℝ) : EReal))
    (out_last V c Q K Vv hq hql hk hkl hv) i d

end Walk

end Cert.KernelIdeal.R1Arr

end
-- ==== Proof.KernelValue.lean ====
import proofs.«416823_j31155692765526_3_alg».proof.Proof.FrKernelIdeal.Main
import proofs.«416823_j31155692765526_3_alg».proof.Proof.HostPrefix
import proofs.«416823_j31155692765526_3_alg».proof.Proof.R0Arr
import proofs.«416823_j31155692765526_3_alg».proof.Proof.R1Arr
import proofs.«416823_j31155692765526_3_alg».proof.Proof.Spec

noncomputable section

namespace Cert.KernelValue

open Idealize.ShloMosaic Idealize.SL.Sem Idealize.ShloMosaic.ValueIdx Idealize.ShloMosaic.TcCoe
open Cert.KernelIdeal Cert.KernelIdeal.Gen

variable (m : (ℓ : Loc nD τ sig) → Buf (Elt Ideal) ℓ) (c : Dev nD)
  (E : Fin 32000 → Fin 1024 → ℝ) (w : Fin 1024 → ℝ) (Wq Wk Wv : Fin 1024 → Fin 1024 → ℝ) (tok : Fin 4096 → Fin 32000)

/-- The first region leaves the three projections of the normalised rows (and two zero arrays); the second folds them
    blockwise, row by row and column by column. -/
theorem kernel_result
    (htok : ∀ i : Fin 4096, (m ((c : Thread nD τ).loc main_arg0) : S1x4096.Idx → BitVec 32) (ix2 (0 : Fin 1) i) = BitVec.ofNat 32 (tok i).val)
    (hE : ∀ (r : Fin 32000) (k : Fin 1024), (m ((c : Thread nD τ).loc main_arg1) : S32000x1024.Idx → EReal) (ix2 r k) = ((E r k : ℝ) : EReal))
    (hw : ∀ k : Fin 1024, (m ((c : Thread nD τ).loc main_arg2) : S1024.Idx → EReal) (ix1 k) = ((w k : ℝ) : EReal))
    (hWq : ∀ j k : Fin 1024, (m ((c : Thread nD τ).loc main_arg3) : S1024x1024.Idx → EReal) (ix2 j k) = ((Wq j k : ℝ) : EReal))
    (hWk : ∀ j k : Fin 1024, (m ((c : Thread nD τ).loc main_arg4) : S1024x1024.Idx → EReal) (ix2 j k) = ((Wk j k : ℝ) : EReal))
    (hWv : ∀ j k : Fin 1024, (m ((c : Thread nD τ).loc main_arg5) : S1024x1024.Idx → EReal) (ix2 j k) = ((Wv j k : ℝ) : EReal)) :
    (Fr.dat1 (Fr.Vr4 m) c).arrAt 5 cfg1.N
      = fun j => ((Cert.Spec.outBlockwise E tok w Wq Wk Wv (j 0) (j 1) : ℝ) : EReal) := by
  have hH := HostPrefix.h0_apply m c tok E htok hE
  have hw3 := fun k : Fin 1024 => (congrFun (HostPrefix.normw_eq m c) (ix1 k)).trans (hw k)
  have hL := HostPrefix.wqk_hi_left m c Wq hWq
  have hR := HostPrefix.wqk_hi_right m c Wk hWk
  have hlo := fun (k : Fin 1024) (j : Fin 2048) => HostPrefix.wqk_lo_zero m c Wq Wk hWq hWk (ix2 k j)
  funext j
  rw [eq_ix2 j]
  exact R1Arr.out_apply (Fr.Vr4 m) c (Cert.Spec.proj (Cert.Spec.normed E tok w) Wq) (Cert.Spec.proj (Cert.Spec.normed E tok w) Wk)
    (Cert.Spec.proj (Cert.Spec.normed E tok w) Wv)
    (fun i d => (congrFun (Fr.V4_v11_0 m c) _).trans (R0Arr.arr_q_hi (Fr.Vr3 m) c E tok w Wq Wk hH hw3 hL hR hlo i d))
    (fun i d => (congrFun (Fr.V4_v11_1 m c) _).trans (R0Arr.arr_q_lo (Fr.Vr3 m) c E tok w Wq Wk hH hw3 hL hR hlo i d))
    (fun i d => (congrFun (Fr.V4_v11_2 m c) _).trans (R0Arr.arr_k_hi (Fr.Vr3 m) c E tok w Wq Wk hH hw3 hL hR hlo i d))
    (fun i d => (congrFun (Fr.V4_v11_3 m c) _).trans (R0Arr.arr_k_lo (Fr.Vr3 m) c E tok w Wq Wk hH hw3 hL hR hlo i d))
    (fun i d => (congrFun (Fr.V4_v11_4 m c) _).trans (R0Arr.arr_v (Fr.Vr3 m) c E tok w Wv hH hw3 (HostPrefix.wv_apply m c Wv hWv) i d))
    (j 0) (j 1)

end Cert.KernelValue

end
-- ==== Proof.RefValue.lean ====
import proofs.«416823_j31155692765526_3_alg».proof.Proof.Gen.ReferenceIdeal.Read
import proofs.«416823_j31155692765526_3_alg».proof.Proof.Spec
import Mathlib.Data.Finset.Lattice.Fold
import Mathlib.Data.EReal.Basic

noncomputable section

namespace Cert.RefValue

open Cert.ReferenceIdeal Cert.ReferenceIdeal.Gen Cert.ReferenceIdeal.Read Idealize.ShloMosaic Idealize.ShloMosaic.ValueIdx Cert.Spec

theorem ofBits_1024 : Ideal.ofBits .f32 0x44800000#32 = ((1024 : ℝ) : EReal) := by
  simp [Ideal.ofBits, Ideal.ieee, -EReal.coe_mul]; norm_num

theorem ofBits_eps : Ideal.ofBits .f32 0x34000000#32 = ((eps : ℝ) : EReal) := by
  unfold eps
  simp [Ideal.ofBits, Ideal.ieee, -EReal.coe_mul]; norm_num

theorem ofBits_neg_inf : Ideal.ofBits .f32 0xFF800000#32 = ⊥ := by
  simp [Ideal.ofBits, Ideal.ieee]

theorem ofBits_one : Ideal.ofBits .f32 0x3F800000#32 = ((1 : ℝ) : EReal) := by
  simp [Ideal.ofBits, Ideal.ieee, -EReal.coe_mul]; norm_num

theorem coe_sum {ι : Type} (s : Finset ι) (f : ι → ℝ) :
    ∑ k ∈ s, ((f k : ℝ) : EReal) = ((∑ k ∈ s, f k : ℝ) : EReal) :=
  (map_sum (⟨⟨Real.toEReal, EReal.coe_zero⟩, EReal.coe_add⟩ : ℝ →+ EReal) f s).symm

/-- An array that reads as a real table at every pair of coordinates reads so at every index. -/
theorem at2 {n m : Nat} {α : Type} {x : (⟨2, ![n, m]⟩ : Shape).Idx → α} {f : Fin n → Fin m → α}
    (h : ∀ a b, x (ix2 a b) = f a b) (p : (⟨2, ![n, m]⟩ : Shape).Idx) : x p = f (p 0) (p 1) :=
  (congrArg x (eq_ix2 p)).trans (h _ _)

theorem at3 {n m : Nat} {α : Type} {x : (⟨3, ![1, n, m]⟩ : Shape).Idx → α} {f : Fin n → Fin m → α}
    (h : ∀ a b, x (ix3 (0 : Fin 1) a b) = f a b) (p : (⟨3, ![1, n, m]⟩ : Shape).Idx) : x p = f (p 1) (p 2) :=
  (congrArg x ((eq_ix3 p).trans (congrArg (fun a : Fin 1 => ix3 a (p 1) (p 2)) (Subsingleton.elim _ _)))).trans (h _ _)

/-- A whole-row gather reads, at the result's own column, the table row that the clamped start index names. -/
theorem gather_read {α : Type} (x : S32000x1024.Idx → α) (idx : IVec S1x4096x1 32) (i : Fin 4096) (k : Fin 1024) :
    Host.gather gather_S32000x1024_S1x4096x1_S1x4096x1024_2_0_n_n_0_2_11024 x idx (ix3 (0 : Fin 1) i k)
      = x (ix2 (⟨min (idx (ix3 (0 : Fin 1) i (0 : Fin 1))).toInt.toNat 31999, by omega⟩ : Fin 32000) k) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    exact congrArg (fun z => min (idx z).toInt.toNat 31999) (funext fun b => Fin.ext (by
      match b with
      | ⟨0, _⟩ => rfl
      | ⟨1, _⟩ => rfl
      | ⟨2, _⟩ => rfl))
  | ⟨1, _⟩ =>
    show GatherDims.start _ _ idx 1 + GatherDims.batchCoord _ _ 1 + GatherDims.offCoord _ _ 1 = _
    rw [GatherDims.batchCoord_eq_zero _ _ _ List.not_mem_nil]
    unfold GatherDims.start GatherDims.offCoord
    rw [dif_neg (by decide), dif_pos (by decide)]
    exact Nat.zero_add _

variable (E : Fin 32000 → Fin 1024 → ℝ) (w : Fin 1024 → ℝ) (Wq Wk Wv : Fin 1024 → Fin 1024 → ℝ) (tok : Fin 4096 → Fin 32000)
  (x0 : (⟨S1x4096, .i32⟩ : BufTy).Contents (Elt Ideal)) (x1 : (⟨S32000x1024, .f32⟩ : BufTy).Contents (Elt Ideal))
  (x2 : (⟨S1024, .f32⟩ : BufTy).Contents (Elt Ideal)) (x3 x4 x5 : (⟨S1024x1024, .f32⟩ : BufTy).Contents (Elt Ideal))
  (htok : ∀ i : Fin 4096, (x0 (ix2 (0 : Fin 1) i)).toInt = ((tok i).val : Int))
  (hE : ∀ (r : Fin 32000) (k : Fin 1024), x1 (ix2 r k) = ((E r k : ℝ) : EReal))
  (hw : ∀ k : Fin 1024, x2 (ix1 k) = ((w k : ℝ) : EReal))
  (hWq : ∀ j k : Fin 1024, x3 (ix2 j k) = ((Wq j k : ℝ) : EReal))
  (hWk : ∀ j k : Fin 1024, x4 (ix2 j k) = ((Wk j k : ℝ) : EReal))
  (hWv : ∀ j k : Fin 1024, x5 (ix2 j k) = ((Wv j k : ℝ) : EReal))

theorem msq_pos (i : Fin 4096) : 0 < (∑ k', E (tok i) k' * E (tok i) k') * (1 / 1024) + eps := by
  have h : 0 ≤ ∑ k', E (tok i) k' * E (tok i) k' := Finset.sum_nonneg fun k _ => mul_self_nonneg _
  have he : 0 < eps := by unfold eps; positivity
  positivity

section Rows
include htok hE

/-- For a token inside the table neither the shift of negative indices nor the clamp does anything. -/
theorem v6_apply (p : S1x4096x1024.Idx) :
    val_main_v6 (F := Ideal) x0 x1 p = ((E (tok (p 1)) (p 2) : ℝ) : EReal) := by
  refine at3 (f := fun i k => ((E (tok i) k : ℝ) : EReal)) (fun i k => ?_) p
  have hp : idx_main_v5 (ix3 (0 : Fin 1) i (0 : Fin 1)) = ix2 (0 : Fin 1) i := by
    funext a; match a with | ⟨0, _⟩ => rfl | ⟨1, _⟩ => rfl
  have hnot : IntOp.cmpi .slt (x0 (ix2 (0 : Fin 1) i)) (0#32) = 0#1 := by
    have : ¬ (x0 (ix2 (0 : Fin 1) i)).toInt < (0#32 : BitVec 32).toInt := by rw [htok]; simp
    simp only [IntOp.cmpi, BitVec.slt, decide_eq_false this]
    rfl
  have hr : min (val_main_v5 (F := Ideal) x0 (ix3 (0 : Fin 1) i (0 : Fin 1))).toInt.toNat 31999 = (tok i).val := by
    have hlt := (tok i).isLt
    rw [val_main_v5_apply, hp, val_main_v4_apply, val_main_v1_apply, val_main_v0_apply, val_main_c_apply, hnot,
      select_zero, htok]
    simp only [Int.toNat_natCast]
    omega
  unfold val_main_v6
  rw [gather_read, hE]
  exact congrArg (fun r => ((E r k : ℝ) : EReal)) (Fin.ext hr)

theorem v8_apply (q : S1x4096.Idx) :
    val_main_v8 (F := Ideal) x0 x1 q = ((∑ k', E (tok (q 1)) k' * E (tok (q 1)) k' : ℝ) : EReal) := by
  rw [val_main_v8_apply, val_main_cst_apply, Ideal.ofBits_def, Ideal.ofBits_zero_f32, zero_add, ← coe_sum]
  refine Finset.sum_congr rfl fun k _ => ?_
  rw [val_main_v7_apply, v6_apply E tok x0 x1 htok hE, Ideal.mulf_def, EReal.coe_mul]
  rfl

/-- The reciprocal root of a positive real is 1/√ of it, and mean square + 2⁻²³ is positive. -/
theorem v14_apply (r : S1x4096x1.Idx) :
    val_main_v14 (F := Ideal) x0 x1 r
      = (((Real.sqrt ((∑ k', E (tok (r 1)) k' * E (tok (r 1)) k') * (1 / 1024) + eps))⁻¹ : ℝ) : EReal) := by
  have hpos := msq_pos E tok (r 1)
  rw [val_main_v14_apply, val_main_v13_apply, val_main_v11_apply, val_main_v9_apply, v8_apply E tok x0 x1 htok hE,
    val_main_v10_apply, val_main_cst_1_apply, val_main_v12_apply, val_main_cst_2_apply,
    Ideal.ofBits_def, Ideal.ofBits_def, ofBits_1024, ofBits_eps, Ideal.hostDivf_def, Ideal.addf_def,
    Ideal.div_coe (by norm_num : (1024 : ℝ) ≠ 0), ← EReal.coe_mul, ← EReal.coe_add,
    Ideal.hostUnary_rsqrt_def, Ideal.rsqrt_coe]
  exact (if_neg (not_lt.mpr hpos.le)).trans (if_neg hpos.ne')

include hw

/-- Dropping the leading unit axis sends (0, i, k) to (i, k). -/
theorem v20_apply (p : S4096x1024.Idx) :
    val_main_v20 (F := Ideal) x0 x1 x2 p = ((normed E tok w (p 0) (p 1) : ℝ) : EReal) := by
  have h0 : (p 0).val < 4096 := (p 0).isLt
  have h1 : (p 1).val < 1024 := (p 1).isLt
  have e1 : (idx_main_v20 p) 1 = p 0 := Fin.ext (by
    show ((p 0).val * 1024 + (p 1).val) / 1024 % 4096 = (p 0).val
    omega)
  have e2 : (idx_main_v20 p) 2 = p 1 := Fin.ext (by
    show ((p 0).val * 1024 + (p 1).val) % 1024 = (p 1).val
    omega)
  rw [← e1, ← e2, val_main_v20_apply, val_main_v19_apply, val_main_v16_apply, v6_apply E tok x0 x1 htok hE,
    val_main_v15_apply, v14_apply E tok x0 x1 htok hE, val_main_v18_apply, val_main_v17_apply,
    (congrArg x2 (eq_ix1 _)).trans (hw _), Ideal.mulf_def, Ideal.mulf_def, ← EReal.coe_mul, ← EReal.coe_mul]
  rfl

end Rows

section Proj
variable (X : Fin 4096 → Fin 1024 → ℝ)
  (hX : ∀ p, val_main_v20 (F := Ideal) x0 x1 x2 p = ((X (p 0) (p 1) : ℝ) : EReal))
include hX hWq

/-- Multiplying by Wᵀ pairs row i of X with row j of W. -/
theorem v22_apply (p : S4096x1024.Idx) :
    val_main_v22 (F := Ideal) x0 x1 x2 x3 p = ((proj X Wq (p 0) (p 1) : ℝ) : EReal) := by
  rw [val_main_v22_apply]
  unfold proj
  rw [← coe_sum]
  refine Finset.sum_congr rfl fun k _ => ?_
  rw [hX, val_main_v21_apply, at2 hWq, ← EReal.coe_mul]
  rfl

end Proj

section Scores
variable (Q K : Fin 4096 → Fin 1024 → ℝ)
  (hQ : ∀ p, val_main_v22 (F := Ideal) x0 x1 x2 x3 p = ((Q (p 0) (p 1) : ℝ) : EReal))
  (hK : ∀ p, val_main_v24 (F := Ideal) x0 x1 x2 x4 p = ((K (p 0) (p 1) : ℝ) : EReal))
include hQ hK

theorem v28_apply (p : S4096x4096.Idx) :
    val_main_v28 (F := Ideal) x0 x1 x2 x3 x4 p = ((scores Q K (p 0) (p 1) : ℝ) : EReal) := by
  rw [val_main_v28_apply]
  unfold scores
  rw [← coe_sum]
  refine Finset.sum_congr rfl fun d _ => ?_
  rw [hQ, val_main_v27_apply, hK, ← EReal.coe_mul]
  rfl

end Scores

/-- The coercion ℝ → EReal is monotone, so it commutes with a finite maximum. -/
theorem fold_max_bot_coe {n : ℕ} [NeZero n] (f : Fin n → ℝ) :
    (Finset.univ : Finset (Fin n)).fold max (⊥ : EReal) (fun k => ((f k : ℝ) : EReal))
      = ((rowMax f : ℝ) : EReal) := by
  unfold rowMax
  rw [Finset.apply_sup'_eq_sup'_comp Finset.univ_nonempty (fun x : ℝ => (x : EReal))
    (fun x y => EReal.coe_strictMono.monotone.map_max), Finset.sup'_eq_sup]
  rfl

section Softmax
variable (S : Fin 4096 → Fin 4096 → ℝ)
  (hS : ∀ p, val_main_v28 (F := Ideal) x0 x1 x2 x3 x4 p = ((S (p 0) (p 1) : ℝ) : EReal))
include hS

theorem v31_apply (q : S4096.Idx) :
    val_main_v31 (F := Ideal) x0 x1 x2 x3 x4 q = ((rowMax (S (q 0)) : ℝ) : EReal) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hred : S4096x4096.Reduces [1] S4096 := by decide
  rw [val_main_v31_apply, val_main_v30_apply, val_main_cst_4_apply, Ideal.ofBits_def, ofBits_neg_inf,
    Ideal.maximumf_def, max_eq_right bot_le]
  unfold val_main_v29
  rw [Host.reduce_eq_fold_single FloatOps.maximumf _ _ reducesTo_S4096x4096_S4096_d1 hred h_S_,
    val_main_cst_3_apply, Ideal.ofBits_def, ofBits_neg_inf, ← fold_max_bot_coe]
  show (Finset.univ : Finset (Fin 4096)).fold max (⊥ : EReal) _ = _
  refine Finset.fold_congr fun k _ => ?_
  show val_main_v28 (F := Ideal) x0 x1 x2 x3 x4 (hred.lift q k) = _
  rw [hS]
  rfl

theorem v35_apply (p : S4096x4096.Idx) :
    val_main_v35 (F := Ideal) x0 x1 x2 x3 x4 p = ((Real.exp (S (p 0) (p 1) - rowMax (S (p 0))) : ℝ) : EReal) := by
  rw [val_main_v35_apply, val_main_v34_apply, hS, val_main_v33_apply, val_main_v32_apply,
    v31_apply x0 x1 x2 x3 x4 S hS, Ideal.subf_def, ← EReal.coe_sub, Ideal.hostUnary_exp_def, Ideal.exp_coe]
  rfl

theorem v36_apply (q : S4096.Idx) :
    val_main_v36 (F := Ideal) x0 x1 x2 x3 x4 q = ((∑ j, Real.exp (S (q 0) j - rowMax (S (q 0))) : ℝ) : EReal) := by
  rw [val_main_v36_apply, val_main_cst_5_apply, Ideal.ofBits_def, Ideal.ofBits_zero_f32, zero_add, ← coe_sum]
  refine Finset.sum_congr rfl fun k _ => ?_
  rw [v35_apply x0 x1 x2 x3 x4 S hS]
  rfl

/-- ∑ exp > 0, so dividing by it is multiplying by its real reciprocal. -/
theorem v39_apply (p : S4096x4096.Idx) :
    val_main_v39 (F := Ideal) x0 x1 x2 x3 x4 p
      = ((Real.exp (S (p 0) (p 1) - rowMax (S (p 0))) * (1 / ∑ j, Real.exp (S (p 0) j - rowMax (S (p 0)))) : ℝ) : EReal) := by
  rw [val_main_v39_apply, v35_apply x0 x1 x2 x3 x4 S hS, val_main_v38_apply, val_main_v37_apply,
    v36_apply x0 x1 x2 x3 x4 S hS, Ideal.hostDivf_def,
    Ideal.div_coe (Finset.sum_pos (fun _ _ => Real.exp_pos _) Finset.univ_nonempty).ne', ← EReal.coe_mul]
  rfl

variable (V : Fin 4096 → Fin 1024 → ℝ)
  (hV : ∀ p, val_main_v26 (F := Ideal) x0 x1 x2 x5 p = ((V (p 0) (p 1) : ℝ) : EReal))
include hV

theorem v40_apply (p : S4096x1024.Idx) :
    val_main_v40 (F := Ideal) x0 x1 x2 x3 x4 x5 p = ((direct (S (p 0)) (fun j => V j (p 1)) : ℝ) : EReal) := by
  rw [val_main_v40_apply]
  unfold direct
  rw [← coe_sum]
  refine Finset.sum_congr rfl fun j _ => ?_
  rw [v39_apply x0 x1 x2 x3 x4 S hS, hV, ← EReal.coe_mul]
  rfl

end Softmax

/-- 1 + e^(−a) > 0, so a · (1 / (1 + e^(−a))) is the real gate of a. -/
theorem gate_coe (a : ℝ) :
    ((a : ℝ) : EReal) * Ideal.div ((1 : ℝ) : EReal) (((1 : ℝ) : EReal) + Ideal.exp (-((a : ℝ) : EReal)))
      = ((gate a : ℝ) : EReal) := by
  have hne : (1 + Real.exp (-a)) ≠ 0 := by positivity
  rw [← EReal.coe_neg, Ideal.exp_coe, ← EReal.coe_add, Ideal.div_coe hne, ← EReal.coe_mul, ← EReal.coe_mul]
  unfold gate
  rw [one_mul, one_div]

include htok hE hw hWq hWk hWv

theorem result_eq :
    val_main_v41 (F := Ideal) x0 x1 x2 x3 x4 x5
      = fun j => ((outDirect E tok w Wq Wk Wv (j 0) (j 1) : ℝ) : EReal) := by
  funext p
  have hX := v20_apply E w tok x0 x1 x2 htok hE hw
  rw [val_main_v41_apply, val_main_call0_v5_apply, val_main_call0_v4_apply, val_main_call0_cst_0_apply,
    val_main_call0_v3_apply, val_main_call0_v2_apply, val_main_call0_cst_apply, val_main_call0_v1_apply,
    val_main_call0_v0_apply,
    v40_apply x0 x1 x2 x3 x4 x5 _
      (v28_apply x0 x1 x2 x3 x4 _ _ (v22_apply Wq x0 x1 x2 x3 hWq _ hX) (v22_apply Wk x0 x1 x2 x4 hWk _ hX))
      _ (v22_apply Wv x0 x1 x2 x5 hWv _ hX),
    Ideal.ofBits_def, ofBits_one, Ideal.mulf_def, Ideal.hostDivf_def, Ideal.addf_def, Ideal.hostUnary_exp_def,
    Ideal.hostNegf_def, Ideal.negf_def, gate_coe]
  rfl

end Cert.RefValue

end
-- ==== Proof.PreDecode.lean ====
import proofs.«416823_j31155692765526_3_alg».proof.Defs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

variable [Cert.Pre_finite_inputs.Facts]

instance : Subsingleton S_.Idx := ⟨fun a b => funext fun d => d.elim0⟩

/-- Every element passes |x| < +∞. -/
def Finite {s : Shape} (a : FVec Ideal s .f32) : Prop :=
  ∀ i, Ideal.cmp .olt (max (a i) (-(a i))) (Ideal.ofBits .f32 0x7F800000#32) = 1#1

/-- At −∞ the negation is +∞, so only a real keeps max x (−x) below +∞. -/
theorem Finite.real {s : Shape} {a : FVec Ideal s .f32} (h : Finite a) (i : s.Idx) : ∃ r : ℝ, a i = (r : EReal) := by
  have hlt := h i
  rw [show Ideal.ofBits .f32 0x7F800000#32 = (⊤ : EReal) by simp [Ideal.ofBits, Ideal.ieee]] at hlt
  replace hlt : max (a i) (-(a i)) < ⊤ := by simpa [Ideal.cmp, StableHlo.Predicate.ofBool_eq_one_iff] using hlt
  generalize a i = x at hlt ⊢
  induction x using EReal.rec with
  | bot => simp at hlt
  | coe r => exact ⟨r, rfl⟩
  | top => simp at hlt

theorem Finite.real2 {n m : Nat} {a : FVec Ideal ⟨2, ![n, m]⟩ .f32} (h : Finite a) :
    ∃ W : Fin n → Fin m → ℝ, ∀ j k, a (ix2 j k) = ((W j k : ℝ) : EReal) := by
  choose f hf using h.real
  exact ⟨fun j k => f (ix2 j k), fun j k => hf _⟩

/-- Between 0 and 31999 in signed order the sign bit is clear, so the signed and unsigned readings agree. -/
theorem word_in_range (w : BitVec 32) (h0 : IntOp.cmpi .sge w 0#32 = 1#1) (h1 : IntOp.cmpi .sle w 31999#32 = 1#1) :
    w.toNat < 32000 ∧ w.toInt = (w.toNat : ℤ) := by
  unfold IntOp.cmpi at h0 h1
  rw [StableHlo.Predicate.ofBool_eq_one_iff] at h0 h1
  simp only [BitVec.sle, decide_eq_true_eq] at h0 h1
  rw [show (0#32 : BitVec 32).toInt = 0 by decide] at h0
  rw [show (31999#32 : BitVec 32).toInt = 31999 by decide] at h1
  have hlt := w.isLt
  rw [BitVec.toInt_eq_toNat_cond] at h0 h1 ⊢
  split_ifs at h0 h1 ⊢ <;> omega

variable (a0 : IVec S1x4096 32) (a1 : FVec Ideal S32000x1024 .f32) (a2 : FVec Ideal S1024 .f32)
  (a3 a4 a5 : FVec Ideal S1024x1024 .f32) (h : fn (F := Ideal) a0 a1 a2 a3 a4 a5 = fun _ => 1#1)
include h

/-- A conjunction of six reductions by `and` equal to 1 makes each test 1 at every element. -/
theorem tests : Finite a1 ∧ Finite a2 ∧ Finite a3 ∧ Finite a4 ∧ Finite a5
    ∧ ∀ i, IntOp.cmpi .sge (a0 i) 0#32 = 1#1 ∧ IntOp.cmpi .sle (a0 i) 31999#32 = 1#1 := by
  have e := congrFun h ix0
  dsimp only [fn, fn_part1] at e
  simp only [andi, IntOp.andi_eq_one] at e
  obtain ⟨⟨⟨⟨⟨e1, e2⟩, e3⟩, e4⟩, e5⟩, e0⟩ := e
  exact ⟨Host.reduce_andi_all _ _ _ _ _ e1, Host.reduce_andi_all _ _ _ _ _ e2, Host.reduce_andi_all _ _ _ _ _ e3,
    Host.reduce_andi_all _ _ _ _ _ e4, Host.reduce_andi_all _ _ _ _ _ e5,
    fun i => IntOp.andi_eq_one.1 (Host.reduce_andi_all _ _ _ _ _ e0 i)⟩

theorem arg1_real : ∃ E : Fin 32000 → Fin 1024 → ℝ, ∀ r k, a1 (ix2 r k) = ((E r k : ℝ) : EReal) :=
  (tests a0 a1 a2 a3 a4 a5 h).1.real2

theorem arg2_real : ∃ w : Fin 1024 → ℝ, ∀ k, a2 (ix1 k) = ((w k : ℝ) : EReal) := by
  choose f hf using (tests a0 a1 a2 a3 a4 a5 h).2.1.real
  exact ⟨fun k => f (ix1 k), fun k => hf _⟩

theorem arg3_real : ∃ W : Fin 1024 → Fin 1024 → ℝ, ∀ j k, a3 (ix2 j k) = ((W j k : ℝ) : EReal) :=
  (tests a0 a1 a2 a3 a4 a5 h).2.2.1.real2

theorem arg4_real : ∃ W : Fin 1024 → Fin 1024 → ℝ, ∀ j k, a4 (ix2 j k) = ((W j k : ℝ) : EReal) :=
  (tests a0 a1 a2 a3 a4 a5 h).2.2.2.1.real2

theorem arg5_real : ∃ W : Fin 1024 → Fin 1024 → ℝ, ∀ j k, a5 (ix2 j k) = ((W j k : ℝ) : EReal) :=
  (tests a0 a1 a2 a3 a4 a5 h).2.2.2.2.1.real2

/-- Each token names a table row: it is that row number's word, and reads as it both unsigned and signed. -/
theorem tok_exists :
    ∃ tok : Fin 4096 → Fin 32000, ∀ i,
      a0 (ix2 (0 : Fin 1) i) = BitVec.ofNat 32 (tok i).val
      ∧ (a0 (ix2 (0 : Fin 1) i)).toNat = (tok i).val
      ∧ (a0 (ix2 (0 : Fin 1) i)).toInt = ((tok i).val : ℤ) := by
  have hr := fun i : Fin 4096 => word_in_range _ ((tests a0 a1 a2 a3 a4 a5 h).2.2.2.2.2 (ix2 (0 : Fin 1) i)).1
    ((tests a0 a1 a2 a3 a4 a5 h).2.2.2.2.2 _).2
  refine ⟨fun i => ⟨_, (hr i).1⟩, fun i => ⟨?_, rfl, (hr i).2⟩⟩
  apply BitVec.eq_of_toNat_eq
  rw [BitVec.toNat_ofNat]
  exact (Nat.mod_eq_of_lt (a0 (ix2 (0 : Fin 1) i)).isLt).symm

end Cert.PreDecode

end
-- ==== Proof.lean ====
import proofs.«416823_j31155692765526_3_alg».proof.Defs
import proofs.«416823_j31155692765526_3_alg».proof.Proof.Gen.Kernel
import proofs.«416823_j31155692765526_3_alg».proof.Proof.Gen.KernelIdeal
import proofs.«416823_j31155692765526_3_alg».proof.Proof.Gen.ReferenceIdeal
import proofs.«416823_j31155692765526_3_alg».proof.Proof.Gen.Pre_finite_inputs
import proofs.«416823_j31155692765526_3_alg».proof.Proof.Gen.ReferenceIdeal.Run
import proofs.«416823_j31155692765526_3_alg».proof.Proof.Gen.ReferenceIdeal.Read
import proofs.«416823_j31155692765526_3_alg».proof.Proof.FrKernelIdeal.Main
import proofs.«416823_j31155692765526_3_alg».proof.Proof.FrKernel.Main
import proofs.«416823_j31155692765526_3_alg».proof.Proof.KernelValue
import proofs.«416823_j31155692765526_3_alg».proof.Proof.RefValue
import proofs.«416823_j31155692765526_3_alg».proof.Proof.PreDecode
import proofs.«416823_j31155692765526_3_alg».proof.Proof.Spec
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- A value narrowed and widened back is the value itself at the ideal instance. -/
theorem preserves : Cert.preserves_Kernel_KernelIdeal :=
  have h := IdealRules.truncf_extf.statement Cert.KernelIdeal.S512x1024 .f32 .bf16
  ⟨h, h, h⟩

/-- Both results are one function of the arguments: the blockwise fold of a row's exponentials is the direct sum. -/
theorem algebraic : Cert.algebraic_KernelIdeal_ReferenceIdeal := by
  intro m ρ m' ρ' hpre hagree
  refine ⟨fun c => (Cert.KernelIdeal.Fr.dat1 (Cert.KernelIdeal.Fr.Vr4 m) c).arrAt 5 Cert.KernelIdeal.cfg1.N,
    Cert.KernelIdeal.Fr.run_main m ρ, ?_⟩
  refine (θ_run Cert.ReferenceIdeal.defs _ _).mono (fun _ h c => ⟨(h c).1.trans ?_, (h c).2⟩)
    (Cert.ReferenceIdeal.Value.run (F := Ideal) m' ρ')
  have p := hpre c
  obtain ⟨e0, e1, e2, e3, e4, e5⟩ := hagree c
  obtain ⟨tok, ht⟩ := Cert.PreDecode.tok_exists _ _ _ _ _ _ p
  obtain ⟨E, hE⟩ := Cert.PreDecode.arg1_real _ _ _ _ _ _ p
  obtain ⟨w, hw⟩ := Cert.PreDecode.arg2_real _ _ _ _ _ _ p
  obtain ⟨Wq, hWq⟩ := Cert.PreDecode.arg3_real _ _ _ _ _ _ p
  obtain ⟨Wk, hWk⟩ := Cert.PreDecode.arg4_real _ _ _ _ _ _ p
  obtain ⟨Wv, hWv⟩ := Cert.PreDecode.arg5_real _ _ _ _ _ _ p
  rw [Cert.ReferenceIdeal.Read.val_main_v41_eq, e0, e1, e2, e3, e4, e5,
    Cert.RefValue.result_eq E w Wq Wk Wv tok _ _ _ _ _ _ (fun i => (ht i).2.2) hE hw hWq hWk hWv]
  refine (Eq.trans (Cert.KernelValue.kernel_result m c E w Wq Wk Wv tok (fun i => (ht i).1) hE hw hWq hWk hWv) ?_).symm
  funext j
  exact congrArg (fun x : ℝ => (x : EReal))
    (congrFun (congrFun (Cert.Spec.outBlockwise_eq_outDirect E tok w Wq Wk Wv) (j 0)) (j 1))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
